-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x4224 : Shape := ⟨2, ![1024, 4224]⟩
abbrev S4224 : Shape := ⟨1, ![4224]⟩
abbrev S2x128 : Shape := ⟨2, ![2, 128]⟩
abbrev S2048x1024 : Shape := ⟨2, ![2048, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x4224 : S_.BroadcastsInDim S1024x4224 (![] : Fin 0 → Fin S1024x4224.rank)
  reducesTo_S1024x4224_S_d0_1 : S1024x4224.ReducesTo [0, 1] S_
  bcast_S_S4224 : S_.BroadcastsInDim S4224 (![] : Fin 0 → Fin S4224.rank)
  reducesTo_S4224_S_d0 : S4224.ReducesTo [0] S_
  bcast_S_S2x128 : S_.BroadcastsInDim S2x128 (![] : Fin 0 → Fin S2x128.rank)
  reducesTo_S2x128_S_d0_1 : S2x128.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S2x128 .f32) (main_arg5 : FVec F S2048x1024 .f32) (main_arg6 : FVec F S1024 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128 .f32 := Host.absf main_arg4
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x4224 .f32) (main_arg2 : FVec F S4224 .f32) (main_arg3 : FVec F S2x128 .f32) (main_arg4 : FVec F S2x128 .f32) (main_arg5 : FVec F S2048x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x4224 .f32 := Host.absf main_arg1
  let main_cst_0 : FVec F S_ .f32 := constant S_ .f32 0x7F800000#32
  let main_v5 : FVec F S1024x4224 .f32 := broadcastInDim S1024x4224 ![] bcast_S_S1024x4224 main_cst_0
  let main_v6 : IVec S1024x4224 1 := cmpf .olt main_v4 main_v5
  let main_c_1 : IVec S_ 1 := constantI S_ 1 1#1
  let main_v7 : IVec S_ 1 := (fun x v => Host.reduce IntOp.andi x v reducesTo_S1024x4224_S_d0_1 h_S_) main_v6 main_c_1
  let main_v8 : IVec S_ 1 := andi main_v3 main_v7
  let main_v9 : FVec F S4224 .f32 := Host.absf main_arg2
  let main_cst_2 : FVec F S_ .f32 := constant S_ .f32 0x7F800000#32
  let main_v10 : FVec F S4224 .f32 := broadcastInDim S4224 ![] bcast_S_S4224 main_cst_2
  let main_v11 : IVec S4224 1 := cmpf .olt main_v9 main_v10
  let main_c_3 : IVec S_ 1 := constantI S_ 1 1#1
  let main_v12 : IVec S_ 1 := (fun x v => Host.reduce IntOp.andi x v reducesTo_S4224_S_d0 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_arg5 main_arg6 main_v13 main_v16
-- ==== Kernel.lean ====
abbrev S4x2048x1024 : Shape := ⟨3, ![4, 2048, 1024]⟩
abbrev S1024x4224 : Shape := ⟨2, ![1024, 4224]⟩
abbrev S4224 : Shape := ⟨1, ![4224]⟩
abbrev S2x128 : Shape := ⟨2, ![2, 128]⟩
abbrev S2048x1024 : Shape := ⟨2, ![2048, 1024]⟩
abbrev S1024 : Shape := ⟨1, ![1024]⟩
abbrev S8192x1024 : Shape := ⟨2, ![8192, 1024]⟩
abbrev S1x4224 : Shape := ⟨2, ![1, 4224]⟩
abbrev S8192x128 : Shape := ⟨2, ![8192, 128]⟩
abbrev S8192x2048 : Shape := ⟨2, ![8192, 2048]⟩
abbrev S256x1024 : Shape := ⟨2, ![256, 1024]⟩
abbrev S256x128 : Shape := ⟨2, ![256, 128]⟩
abbrev S256x2048 : Shape := ⟨2, ![256, 2048]⟩
abbrev S256x4224 : Shape := ⟨2, ![256, 4224]⟩
abbrev S1x128 : Shape := ⟨2, ![1, 128]⟩
abbrev S4x2048x128 : Shape := ⟨3, ![4, 2048, 128]⟩
abbrev S4x2048x2048 : Shape := ⟨3, ![4, 2048, 2048]⟩
abbrev S1x1024 : Shape := ⟨2, ![1, 1024]⟩
abbrev S1x256x128 : Shape := ⟨3, ![1, 256, 128]⟩
abbrev S1x512x128 : Shape := ⟨3, ![1, 512, 128]⟩
abbrev S1x512x2048 : Shape := ⟨3, ![1, 512, 2048]⟩
abbrev S1x256x2048 : Shape := ⟨3, ![1, 256, 2048]⟩
abbrev S1x256x1024 : Shape := ⟨3, ![1, 256, 1024]⟩
abbrev S512x128 : Shape := ⟨2, ![512, 128]⟩
abbrev S128x512 : Shape := ⟨2, ![128, 512]⟩
abbrev S256x512 : Shape := ⟨2, ![256, 512]⟩
abbrev S512x2048 : Shape := ⟨2, ![512, 2048]⟩

abbrev nBuf : Space → Nat
  | .hbm => 21
  | .vmem => 27
  | .smem => 0
  | _ => 0

abbrev bufTy : (tb : Table) → Fin (tcTables nBuf tb) → BufTy
  | .hbm, ⟨0, _⟩ => ⟨S4x2048x1024, .f32⟩
  | .hbm, ⟨1, _⟩ => ⟨S1024x4224, .f32⟩
  | .hbm, ⟨2, _⟩ => ⟨S4224, .f32⟩
  | .hbm, ⟨3, _⟩ => ⟨S2x128, .f32⟩
  | .hbm, ⟨4, _⟩ => ⟨S2x128, .f32⟩
  | .hbm, ⟨5, _⟩ => ⟨S2048x1024, .f32⟩
  | .hbm, ⟨6, _⟩ => ⟨S1024, .f32⟩
  | .hbm, ⟨7, _⟩ => ⟨S8192x1024, .f32⟩
  | .hbm, ⟨8, _⟩ => ⟨S1024x4224, .bf16⟩
  | .hbm, ⟨9, _⟩ => ⟨S1x4224, .f32⟩
  | .hbm, ⟨10, _⟩ => ⟨S8192x128, .bf16⟩
  | .hbm, ⟨11, _⟩ => ⟨S8192x128, .bf16⟩
  | .hbm, ⟨12, _⟩ => ⟨S8192x2048, .bf16⟩
  | .hbm, ⟨13, _⟩ => ⟨S8192x2048, .bf16⟩
  | .hbm, ⟨14, _⟩ => ⟨S4x2048x128, .bf16⟩
  | .hbm, ⟨15, _⟩ => ⟨S4x2048x128, .bf16⟩
  | .hbm, ⟨16, _⟩ => ⟨S4x2048x2048, .bf16⟩
  | .hbm, ⟨17, _⟩ => ⟨S4x2048x2048, .bf16⟩
  | .hbm, ⟨18, _⟩ => ⟨S2048x1024, .bf16⟩
  | .hbm, ⟨19, _⟩ => ⟨S1x1024, .f32⟩
  | .hbm, ⟨20, _⟩ => ⟨S4x2048x1024, .f32⟩
  | .local _ .vmem, ⟨0, _⟩ => ⟨S256x1024, .f32⟩
  | .local _ .vmem, ⟨1, _⟩ => ⟨S256x1024, .f32⟩
  | .local _ .vmem, ⟨2, _⟩ => ⟨S1024x4224, .bf16⟩
  | .local _ .vmem, ⟨3, _⟩ => ⟨S1x4224, .f32⟩
  | .local _ .vmem, ⟨4, _⟩ => ⟨S2x128, .f32⟩
  | .local _ .vmem, ⟨5, _⟩ => ⟨S2x128, .f32⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x2048, .bf16⟩
  | .local _ .vmem, ⟨11, _⟩ => ⟨S256x2048, .bf16⟩
  | .local _ .vmem, ⟨12, _⟩ => ⟨S256x2048, .bf16⟩
  | .local _ .vmem, ⟨13, _⟩ => ⟨S256x2048, .bf16⟩
  | .local _ .vmem, ⟨14, _⟩ => ⟨S1x256x128, .bf16⟩
  | .local _ .vmem, ⟨15, _⟩ => ⟨S1x256x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512x2048, .bf16⟩
  | .local _ .vmem, ⟨19, _⟩ => ⟨S1x512x2048, .bf16⟩
  | .local _ .vmem, ⟨20, _⟩ => ⟨S1x256x2048, .bf16⟩
  | .local _ .vmem, ⟨21, _⟩ => ⟨S1x256x2048, .bf16⟩
  | .local _ .vmem, ⟨22, _⟩ => ⟨S2048x1024, .bf16⟩
  | .local _ .vmem, ⟨23, _⟩ => ⟨S1x1024, .f32⟩
  | .local _ .vmem, ⟨24, _⟩ => ⟨S1x256x1024, .f32⟩
  | .local _ .vmem, ⟨25, _⟩ => ⟨S1x256x1024, .f32⟩
  | .local _ .vmem, ⟨26, _⟩ => ⟨S256x2048, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem5_0 : DmaSem sig := 23
abbrev cc1_sem6_0 : DmaSem sig := 24
abbrev cc1_sem6_1 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨3, ![4, 8, 4], ![false, false, false]⟩

def k1_cond2 (i : grid1.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_16 : BitVec 32 := 0#32
  let v25 : BitVec 1 := Scalar.cmpi .ne v24 c0_i32_16
  v25

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x256x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x256x2048 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 1 → Memref sig .tc .vmem S2048x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x2048x1024_S8192x1024 : S4x2048x1024.ShapeCasts S8192x1024
  bitsLt_bf16_f32 : FTy.bits .bf16 < FTy.bits .f32
  shapeCasts_S4224_S1x4224 : S4224.ShapeCasts S1x4224
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4224_S1024x4224_0_0 : ∀ a, (![0, 0] : Fin 2 → Nat) a + S1024x4224.size a ≤ S1024x4224.size a
  h_S1024x4224 : 0 < S1024x4224.numel
  shapeCasts_S1024x4224_S1024x4224 : S1024x4224.ShapeCasts S1024x4224
  inb_S1x4224_S1x4224_0_0 : ∀ a, (![0, 0] : Fin 2 → Nat) a + S1x4224.size a ≤ S1x4224.size a
  h_S1x4224 : 0 < S1x4224.numel
  shapeCasts_S1x4224_S1x4224 : S1x4224.ShapeCasts S1x4224
  broadcasts_S1x4224_S256x4224 : S1x4224.Broadcasts S256x4224
  slices_S256x4224_o0_0_S256x2048 : S256x4224.Slices ![0, 0] S256x2048
  slices_S256x4224_o0_2048_S256x2048 : S256x4224.Slices ![0, 2048] S256x2048
  slices_S256x4224_o0_4096_S256x128 : S256x4224.Slices ![0, 4096] S256x128
  inb_S2x128_S2x128_0_0 : ∀ a, (![0, 0] : Fin 2 → Nat) a + S2x128.size a ≤ S2x128.size a
  h_S2x128 : 0 < S2x128.numel
  slices_S2x128_o0_0_S1x128 : S2x128.Slices ![0, 0] S1x128
  broadcasts_S1x128_S256x128 : S1x128.Broadcasts S256x128
  slices_S2x128_o1_0_S1x128 : S2x128.Slices ![1, 0] S1x128
  inb_S256x128_S256x128_0_0 : ∀ a, (![0, 0] : Fin 2 → Nat) a + S256x128.size a ≤ S256x128.size a
  h_S256x128 : 0 < S256x128.numel
  packedbf16_S256x128_S256x128_0_0 : (Rect.unit (s := S256x128) ![0, 0] S256x128.size inb_S256x128_S256x128_0_0).PackedRows (EltTy.packing .bf16)
  inb_S256x2048_S256x2048_0_0 : ∀ a, (![0, 0] : Fin 2 → Nat) a + S256x2048.size a ≤ S256x2048.size a
  h_S256x2048 : 0 < S256x2048.numel
  packedbf16_S256x2048_S256x2048_0_0 : (Rect.unit (s := S256x2048) ![0, 0] S256x2048.size inb_S256x2048_S256x2048_0_0).PackedRows (EltTy.packing .bf16)
  shapeCasts_S8192x128_S4x2048x128 : S8192x128.ShapeCasts S4x2048x128
  shapeCasts_S8192x2048_S4x2048x2048 : S8192x2048.ShapeCasts S4x2048x2048
  shapeCasts_S1024_S1x1024 : S1024.ShapeCasts S1x1024
  shapeCasts_S256x2048_S256x2048 : S256x2048.ShapeCasts S256x2048
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  transposes_S512x128_p1_0_S128x512 : S512x128.Transposes [1, 0] S128x512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  shapeCasts_S256x1024_S1x256x1024 : S256x1024.ShapeCasts S1x256x1024
  dot_S256x1024_S1024x4224_S256x4224_1_0_0_1_n_n_wf : DotDims.WF S256x1024 S1024x4224 S256x4224 [1] [0] [0] [1] [] []
  dot_S256x128_S128x512_S256x512_1_0_0_1_n_n_wf : DotDims.WF S256x128 S128x512 S256x512 [1] [0] [0] [1] [] []
  dot_S256x512_S512x2048_S256x2048_1_0_0_1_n_n_wf : DotDims.WF S256x512 S512x2048 S256x2048 [1] [0] [0] [1] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4224.size a ≤ S1024x4224.size a
  hwx0_1 : ∀ i : grid0.Coords, EltTy.bits .bf16 = 32 ∨ (Rect.block (s := S1024x4224) S1024x4224.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4224.size a ≤ S1x4224.size a
  hwx0_2 : ∀ i : grid0.Coords, EltTy.bits .f32 = 32 ∨ (Rect.block (s := S1x4224) S1x4224.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x128.size a ≤ S2x128.size a
  hwx0_3 : ∀ i : grid0.Coords, EltTy.bits .f32 = 32 ∨ (Rect.block (s := S2x128) S2x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x128.size a ≤ S2x128.size a
  hwx0_4 : ∀ i : grid0.Coords, EltTy.bits .f32 = 32 ∨ (Rect.block (s := S2x128) S2x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S8192x128.size a
  hwx0_5 : ∀ i : grid0.Coords, EltTy.bits .bf16 = 32 ∨ (Rect.block (s := S8192x128) S256x128.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S8192x128.size a
  hwx0_6 : ∀ i : grid0.Coords, EltTy.bits .bf16 = 32 ∨ (Rect.block (s := S8192x128) S256x128.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S8192x2048.size a
  hwx0_7 : ∀ i : grid0.Coords, EltTy.bits .bf16 = 32 ∨ (Rect.block (s := S8192x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S8192x2048.size a
  hwx0_8 : ∀ i : grid0.Coords, EltTy.bits .bf16 = 32 ∨ (Rect.block (s := S8192x2048) S256x2048.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x128.size a ≤ S4x2048x128.size a
  hwx1_0 : ∀ i : grid1.Coords, EltTy.bits .bf16 = 32 ∨ (Rect.block (s := S4x2048x128) S1x256x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x128.size a ≤ S4x2048x128.size a
  hwx1_1 : ∀ i : grid1.Coords, EltTy.bits .bf16 = 32 ∨ (Rect.block (s := S4x2048x128) S1x512x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x2048.size a ≤ S4x2048x2048.size a
  hwx1_2 : ∀ i : grid1.Coords, EltTy.bits .bf16 = 32 ∨ (Rect.block (s := S4x2048x2048) S1x512x2048.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S4x2048x2048.size a
  hwx1_3 : ∀ i : grid1.Coords, EltTy.bits .bf16 = 32 ∨ (Rect.block (s := S4x2048x2048) S1x256x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x1024.size a ≤ S2048x1024.size a
  hwx1_4 : ∀ i : grid1.Coords, EltTy.bits .bf16 = 32 ∨ (Rect.block (s := S2048x1024) S2048x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x256x1024.size a ≤ S4x2048x1024.size a
  hwx1_6 : ∀ i : grid1.Coords, EltTy.bits .f32 = 32 ∨ (Rect.block (s := S4x2048x1024) S1x256x1024.size (cc1_transform_6 i) (hinb1_6 i)).WholeWords (EltTy.packing .f32)

variable [Facts₀]

def dot_S256x1024_S1024x4224_S256x4224_1_0_0_1_n_n : DotDims S256x1024 S1024x4224 S256x4224 where
  lhsContracting := [1]
  rhsContracting := [0]
  lhsNonContracting := [0]
  rhsNonContracting := [1]
  lhsBatch := []
  rhsBatch := []
  wf := dot_S256x1024_S1024x4224_S256x4224_1_0_0_1_n_n_wf
def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x4224.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S256x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S256x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3_2) S256x2048.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3_3) S256x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v4) S1x256x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x512x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S2048x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x256x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x4224 : Shape := ⟨2, ![1024, 4224]⟩
abbrev S4224 : Shape := ⟨1, ![4224]⟩
abbrev S2x128 : Shape := ⟨2, ![2, 128]⟩
abbrev S2048x1024 : Shape := ⟨2, ![2048, 1024]⟩
abbrev S1024 : Shape := ⟨1, ![1024]⟩
abbrev S4x2048x4224 : Shape := ⟨3, ![4, 2048, 4224]⟩
abbrev S1x1x4224 : Shape := ⟨3, ![1, 1, 4224]⟩
abbrev S_ : Shape := ⟨0, ![]⟩
abbrev S4x2048x2048 : Shape := ⟨3, ![4, 2048, 2048]⟩
abbrev S4x2048x128 : Shape := ⟨3, ![4, 2048, 128]⟩
abbrev S4x2048x1x128 : Shape := ⟨4, ![4, 2048, 1, 128]⟩
abbrev S1x1x2x128 : Shape := ⟨4, ![1, 1, 2, 128]⟩
abbrev S4x2048x2x128 : Shape := ⟨4, ![4, 2048, 2, 128]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x4224, .f32⟩
  | .hbm, ⟨2, _⟩ => ⟨S4224, .f32⟩
  | .hbm, ⟨3, _⟩ => ⟨S2x128, .f32⟩
  | .hbm, ⟨4, _⟩ => ⟨S2x128, .f32⟩
  | .hbm, ⟨5, _⟩ => ⟨S2048x1024, .f32⟩
  | .hbm, ⟨6, _⟩ => ⟨S1024, .f32⟩
  | .hbm, ⟨7, _⟩ => ⟨S4x2048x4224, .f32⟩
  | .hbm, ⟨8, _⟩ => ⟨S1x1x4224, .f32⟩
  | .hbm, ⟨9, _⟩ => ⟨S4x2048x4224, .f32⟩
  | .hbm, ⟨10, _⟩ => ⟨S4x2048x4224, .f32⟩
  | .hbm, ⟨11, _⟩ => ⟨S4x2048x4224, .f32⟩
  | .hbm, ⟨12, _⟩ => ⟨S4x2048x4224, .f32⟩
  | .hbm, ⟨13, _⟩ => ⟨S_, .f32⟩
  | .hbm, ⟨14, _⟩ => ⟨S4x2048x4224, .f32⟩
  | .hbm, ⟨15, _⟩ => ⟨S4x2048x4224, .f32⟩
  | .hbm, ⟨16, _⟩ => ⟨S_, .f32⟩
  | .hbm, ⟨17, _⟩ => ⟨S4x2048x4224, .f32⟩
  | .hbm, ⟨18, _⟩ => ⟨S4x2048x4224, .f32⟩
  | .hbm, ⟨19, _⟩ => ⟨S4x2048x4224, .f32⟩
  | .hbm, ⟨20, _⟩ => ⟨S4x2048x2048, .f32⟩
  | .hbm, ⟨21, _⟩ => ⟨S4x2048x2048, .f32⟩
  | .hbm, ⟨22, _⟩ => ⟨S4x2048x128, .f32⟩
  | .hbm, ⟨23, _⟩ => ⟨S4x2048x1x128, .f32⟩
  | .hbm, ⟨24, _⟩ => ⟨S1x1x2x128, .f32⟩
  | .hbm, ⟨25, _⟩ => ⟨S4x2048x2x128, .f32⟩
  | .hbm, ⟨26, _⟩ => ⟨S4x2048x2x128, .f32⟩
  | .hbm, ⟨27, _⟩ => ⟨S4x2048x2x128, .f32⟩
  | .hbm, ⟨28, _⟩ => ⟨S1x1x2x128, .f32⟩
  | .hbm, ⟨29, _⟩ => ⟨S4x2048x2x128, .f32⟩
  | .hbm, ⟨30, _⟩ => ⟨S4x2048x2x128, .f32⟩
  | .hbm, ⟨31, _⟩ => ⟨S4x2048x1x128, .f32⟩
  | .hbm, ⟨32, _⟩ => ⟨S4x2048x128, .f32⟩
  | .hbm, ⟨33, _⟩ => ⟨S4x2048x1x128, .f32⟩
  | .hbm, ⟨34, _⟩ => ⟨S4x2048x128, .f32⟩
  | .hbm, ⟨35, _⟩ => ⟨S4x2048x2048, .f32⟩
  | .hbm, ⟨36, _⟩ => ⟨S_, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048x2048, .f32⟩
  | .hbm, ⟨41, _⟩ => ⟨S4x2048x2048, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_call1_cst : Ref sig .tc := ⟨.hbm, 39, rfl⟩
abbrev main_call1_v0 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  bcast_S4224_S1x1x4224_2 : S4224.BroadcastsInDim S1x1x4224 (![2] : Fin 1 → Fin S1x1x4224.rank)
  bcast_S1x1x4224_S4x2048x4224_0_1_2 : S1x1x4224.BroadcastsInDim S4x2048x4224 (![0, 1, 2] : Fin 3 → Fin S4x2048x4224.rank)
  bcast_S_S4x2048x4224 : S_.BroadcastsInDim S4x2048x4224 (![] : Fin 0 → Fin S4x2048x4224.rank)
  slices_S4x2048x4224_S4x2048x2048_0_0_0 : S4x2048x4224.Slices ![0, 0, 0] S4x2048x2048
  slices_S4x2048x4224_S4x2048x2048_0_0_2048 : S4x2048x4224.Slices ![0, 0, 2048] S4x2048x2048
  slices_S4x2048x4224_S4x2048x128_0_0_4096 : S4x2048x4224.Slices ![0, 0, 4096] S4x2048x128
  bcast_S4x2048x128_S4x2048x1x128_0_1_3 : S4x2048x128.BroadcastsInDim S4x2048x1x128 (![0, 1, 3] : Fin 3 → Fin S4x2048x1x128.rank)
  bcast_S2x128_S1x1x2x128_2_3 : S2x128.BroadcastsInDim S1x1x2x128 (![2, 3] : Fin 2 → Fin S1x1x2x128.rank)
  bcast_S4x2048x1x128_S4x2048x2x128_0_1_2_3 : S4x2048x1x128.BroadcastsInDim S4x2048x2x128 (![0, 1, 2, 3] : Fin 4 → Fin S4x2048x2x128.rank)
  bcast_S1x1x2x128_S4x2048x2x128_0_1_2_3 : S1x1x2x128.BroadcastsInDim S4x2048x2x128 (![0, 1, 2, 3] : Fin 4 → Fin S4x2048x2x128.rank)
  slices_S4x2048x2x128_S4x2048x1x128_0_0_0_0 : S4x2048x2x128.Slices ![0, 0, 0, 0] S4x2048x1x128
  shapeCasts_S4x2048x1x128_S4x2048x128 : S4x2048x1x128.ShapeCasts S4x2048x128
  slices_S4x2048x2x128_S4x2048x1x128_0_0_1_0 : S4x2048x2x128.Slices ![0, 0, 1, 0] S4x2048x1x128
  bcast_S_S4x2048x2048 : S_.BroadcastsInDim S4x2048x2048 (![] : Fin 0 → Fin S4x2048x2048.rank)
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  dot_S4x2048x1024_S1024x4224_S4x2048x4224_2_0_01_1_n_n_wf : DotDims.WF S4x2048x1024 S1024x4224 S4x2048x4224 [2] [0] [0, 1] [1] [] []
  dot_S4x2048x128_S4x2048x128_S4x2048x2048_2_2_1_1_0_0_wf : DotDims.WF S4x2048x128 S4x2048x128 S4x2048x2048 [2] [2] [1] [1] [0] [0]
  dot_S4x2048x2048_S4x2048x2048_S4x2048x2048_2_1_1_2_0_0_wf : DotDims.WF S4x2048x2048 S4x2048x2048 S4x2048x2048 [2] [1] [1] [2] [0] [0]
  dot_S4x2048x2048_S2048x1024_S4x2048x1024_2_0_01_1_n_n_wf : DotDims.WF S4x2048x2048 S2048x1024 S4x2048x1024 [2] [0] [0, 1] [1] [] []

variable [Facts₀]

def dot_S4x2048x1024_S1024x4224_S4x2048x4224_2_0_01_1_n_n : DotDims S4x2048x1024 S1024x4224 S4x2048x4224 where
  lhsContracting := [2]
  rhsContracting := [0]
  lhsNonContracting := [0, 1]
  rhsNonContracting := [1]
  lhsBatch := []
  rhsBatch := []
  wf := dot_S4x2048x1024_S1024x4224_S4x2048x4224_2_0_01_1_n_n_wf
def dot_S4x2048x128_S4x2048x128_S4x2048x2048_2_2_1_1_0_0 : DotDims S4x2048x128 S4x2048x128 S4x2048x2048 where
  lhsContracting := [2]
  rhsContracting := [2]
  lhsNonContracting := [1]
  rhsNonContracting := [1]
  lhsBatch := [0]
  rhsBatch := [0]
  wf := dot_S4x2048x128_S4x2048x128_S4x2048x2048_2_2_1_1_0_0_wf
def dot_S4x2048x2048_S4x2048x2048_S4x2048x2048_2_1_1_2_0_0 : DotDims S4x2048x2048 S4x2048x2048 S4x2048x2048 where
  lhsContracting := [2]
  rhsContracting := [1]
  lhsNonContracting := [1]
  rhsNonContracting := [2]
  lhsBatch := [0]
  rhsBatch := [0]
  wf := dot_S4x2048x2048_S4x2048x2048_S4x2048x2048_2_1_1_2_0_0_wf
def dot_S4x2048x2048_S2048x1024_S4x2048x1024_2_0_01_1_n_n : DotDims S4x2048x2048 S2048x1024 S4x2048x1024 where
  lhsContracting := [2]
  rhsContracting := [0]
  lhsNonContracting := [0, 1]
  rhsNonContracting := [1]
  lhsBatch := []
  rhsBatch := []
  wf := dot_S4x2048x2048_S2048x1024_S4x2048x1024_2_0_01_1_n_n_wf

class Facts : Prop extends Facts₀ where

variable [Facts]
-- ==== Proof.K.R0.lean ====
import proofs.«143630_j6073083756839_1_alg».proof.Proof.Gen.Kernel.Launch
import proofs.«143630_j6073083756839_1_alg».proof.Proof.Gen.Kernel.Skeleton
import proofs.«143630_j6073083756839_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
  (c : Dev nD) (i : grid0.Coords)
  (arg1 : Memref sig .tc .vmem S256x1024 .f32) (harg1 : arg1.IsWhole)
  (arg2 : Memref sig .tc .vmem S1024x4224 .bf16) (harg2 : arg2.IsWhole)
  (arg3 : Memref sig .tc .vmem S1x4224 .f32) (harg3 : arg3.IsWhole)
  (arg4 : Memref sig .tc .vmem S2x128 .f32) (harg4 : arg4.IsWhole)
  (arg5 : Memref sig .tc .vmem S2x128 .f32) (harg5 : arg5.IsWhole)
  (arg6 : Memref sig .tc .vmem S256x128 .bf16) (harg6 : arg6.IsWhole)
  (arg7 : Memref sig .tc .vmem S256x128 .bf16) (harg7 : arg7.IsWhole)
  (arg8 : Memref sig .tc .vmem S256x2048 .bf16) (harg8 : arg8.IsWhole)
  (arg9 : Memref sig .tc .vmem S256x2048 .bf16) (harg9 : arg9.IsWhole)
  (x0 : Vec F S256x1024 .f32) (x1 : Vec F S1024x4224 .bf16) (x2 : Vec F S1x4224 .f32) (x3 : Vec F S2x128 .f32) (x4 : Vec F S2x128 .f32)
  (w : Fin cfg0.W) (t : Fin cfg0.N)

/-- The block of window `w`'s array that point `t` addresses, at the contents `V`. -/
def iblk0 : ((cfg0.win w).xblock (cfg0.grid.coords t)).Idx → Elt F (cfg0.win w).elt :=
  ((cfg0.win w).blk t).view.read (Elt F) (V c (Pipeline.arrRef spec0 w))

abbrev ms0_0 : Memref sig .tc .vmem S256x1024 .f32 := win0_0.stage (cfg0.slots t 0)
abbrev hs0_0 : (ms0_0 t).IsWhole := hstage0_0 ((cfg0.slots t 0).cast nbuf0_0)
abbrev ms0_1 : Memref sig .tc .vmem S1024x4224 .bf16 := win0_1.stage (cfg0.slots t 1)
abbrev hs0_1 : (ms0_1 t).IsWhole := hstage0_1 ((cfg0.slots t 1).cast nbuf0_1)
abbrev ms0_2 : Memref sig .tc .vmem S1x4224 .f32 := win0_2.stage (cfg0.slots t 2)
abbrev hs0_2 : (ms0_2 t).IsWhole := hstage0_2 ((cfg0.slots t 2).cast nbuf0_2)
abbrev ms0_3 : Memref sig .tc .vmem S2x128 .f32 := win0_3.stage (cfg0.slots t 3)
abbrev hs0_3 : (ms0_3 t).IsWhole := hstage0_3 ((cfg0.slots t 3).cast nbuf0_3)
abbrev ms0_4 : Memref sig .tc .vmem S2x128 .f32 := win0_4.stage (cfg0.slots t 4)
abbrev hs0_4 : (ms0_4 t).IsWhole := hstage0_4 ((cfg0.slots t 4).cast nbuf0_4)
abbrev ms0_5 : Memref sig .tc .vmem S256x128 .bf16 := win0_5.stage (cfg0.slots t 5)
abbrev hs0_5 : (ms0_5 t).IsWhole := hstage0_5 ((cfg0.slots t 5).cast nbuf0_5)
abbrev ms0_6 : Memref sig .tc .vmem S256x128 .bf16 := win0_6.stage (cfg0.slots t 6)
abbrev hs0_6 : (ms0_6 t).IsWhole := hstage0_6 ((cfg0.slots t 6).cast nbuf0_6)
abbrev ms0_7 : Memref sig .tc .vmem S256x2048 .bf16 := win0_7.stage (cfg0.slots t 7)
abbrev hs0_7 : (ms0_7 t).IsWhole := hstage0_7 ((cfg0.slots t 7).cast nbuf0_7)
abbrev ms0_8 : Memref sig .tc .vmem S256x2048 .bf16 := win0_8.stage (cfg0.slots t 8)
abbrev hs0_8 : (ms0_8 t).IsWhole := hstage0_8 ((cfg0.slots t 8).cast nbuf0_8)
abbrev VO0_5 : View sig .tc .vmem S256x128 .bf16 := (Memref.whole cc0_stg5_0 : Memref sig .tc .vmem S256x128 .bf16).view
abbrev VO0_6 : View sig .tc .vmem S256x128 .bf16 := (Memref.whole cc0_stg6_0 : Memref sig .tc .vmem S256x128 .bf16).view
abbrev VO0_7 : View sig .tc .vmem S256x2048 .bf16 := (Memref.whole cc0_stg7_0 : Memref sig .tc .vmem S256x2048 .bf16).view
abbrev VO0_8 : View sig .tc .vmem S256x2048 .bf16 := (Memref.whole cc0_stg8_0 : Memref sig .tc .vmem S256x2048 .bf16).view

/-- A whole memref reads injectively, so owning it at `x` pins what it holds. -/
theorem owns_unread {c : Dev nD} {sp : Space} {s : Shape} {e : EltTy} {m : Memref sig .tc sp s e} (h : m.IsWhole) (x : s.Idx → Elt F e) :
    (owns (c : Thread nD τ) m fullShare x : sProp 𝕄) = iprop(m.view.loc (c : Thread nD τ) ↦[m.view.set]{fullShare} h.unread x) := by
  unfold owns
  refine Entails.antisymm (show (_ : sProp 𝕄) ⊢ _ from ?_) (show (_ : sProp 𝕄) ⊢ _ from ?_)
  · iintro ⟨%f, %hf, H⟩; obtain rfl := h.eq_unread hf; iexact H
  · iintro H; iexists _; isplitr; · ipureintro; exact h.read_unread _
    iexact H

/-- The body's run on whole memrefs: inputs unchanged, each output written with its list of pieces. -/
def kernelRun0 :
    Σ' (L5 : List (View.Piece (Elt F) S256x128 .bf16)) (L6 : List (View.Piece (Elt F) S256x128 .bf16)) (L7 : List (View.Piece (Elt F) S256x2048 .bf16)), { L8 : List (View.Piece (Elt F) S256x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_kernel_a i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_kernel_a_eq_skeleton]; unfold cc0_kernel_a_skel
    simp only [k0_part1_eq_skeleton]
    rw [owns_unread harg1, owns_unread harg2, owns_unread harg3, owns_unread harg4, owns_unread harg5]
    unfold owns
    iintro ⟨H0, H1, H2, H3, H4, ⟨%d5, %f5, -, H5⟩, ⟨%d6, %f6, -, H6⟩, ⟨%d7, %f7, -, H7⟩, ⟨%d8, %f8, -, H8⟩, Hk⟩
    sl_exec
    sl_step
    iapply Hk
    iframe H0 H1 H2 H3 H4
    isplitl [H5]; · iexists _; iexact H5
    isplitl [H6]; · iexists _; iexact H6
    isplitl [H7]; · iexists _; iexact H7
    iexists _; iexact H8

/-- The stores into an output tile its shape, hence cover it; what they leave is read back through a fixed view. -/
theorem cover0_5 (y : S256x128.Idx) : ∃ pc ∈ (kernelRun0 c i _ harg1 _ harg2 _ harg3 _ harg4 _ harg5 _ harg6 _ harg7 _ harg8 _ harg9 x0 x1 x2 x3 x4).1, y ∈ pc.1.set :=
  View.cover_of_tiledL _ S256x128.size (by sl_kernel_rfl) y

def out0_5 : Vec F S256x128 .bf16 :=
  VO0_5.read (Elt F) (VO0_5.writes (Elt F) VO0_5.junk (kernelRun0 c i _ harg1 _ harg2 _ harg3 _ harg4 _ harg5 _ harg6 _ harg7 _ harg8 _ harg9 x0 x1 x2 x3 x4).1)

theorem cover0_6 (y : S256x128.Idx) : ∃ pc ∈ (kernelRun0 c i _ harg1 _ harg2 _ harg3 _ harg4 _ harg5 _ harg6 _ harg7 _ harg8 _ harg9 x0 x1 x2 x3 x4).2.1, y ∈ pc.1.set :=
  View.cover_of_tiledL _ S256x128.size (by sl_kernel_rfl) y

def out0_6 : Vec F S256x128 .bf16 :=
  VO0_6.read (Elt F) (VO0_6.writes (Elt F) VO0_6.junk (kernelRun0 c i _ harg1 _ harg2 _ harg3 _ harg4 _ harg5 _ harg6 _ harg7 _ harg8 _ harg9 x0 x1 x2 x3 x4).2.1)

theorem cover0_7 (y : S256x2048.Idx) : ∃ pc ∈ (kernelRun0 c i _ harg1 _ harg2 _ harg3 _ harg4 _ harg5 _ harg6 _ harg7 _ harg8 _ harg9 x0 x1 x2 x3 x4).2.2.1, y ∈ pc.1.set :=
  View.cover_of_tiledL _ S256x2048.size (by sl_kernel_rfl) y

def out0_7 : Vec F S256x2048 .bf16 :=
  VO0_7.read (Elt F) (VO0_7.writes (Elt F) VO0_7.junk (kernelRun0 c i _ harg1 _ harg2 _ harg3 _ harg4 _ harg5 _ harg6 _ harg7 _ harg8 _ harg9 x0 x1 x2 x3 x4).2.2.1)

theorem cover0_8 (y : S256x2048.Idx) : ∃ pc ∈ (kernelRun0 c i _ harg1 _ harg2 _ harg3 _ harg4 _ harg5 _ harg6 _ harg7 _ harg8 _ harg9 x0 x1 x2 x3 x4).2.2.2.1, y ∈ pc.1.set :=
  View.cover_of_tiledL _ S256x2048.size (by sl_kernel_rfl) y

def out0_8 : Vec F S256x2048 .bf16 :=
  VO0_8.read (Elt F) (VO0_8.writes (Elt F) VO0_8.junk (kernelRun0 c i _ harg1 _ harg2 _ harg3 _ harg4 _ harg5 _ harg6 _ harg7 _ harg8 _ harg9 x0 x1 x2 x3 x4).2.2.2.1)

/-- Region 0's proof data: an input window keeps its block, an output window gets what the run leaves from the input blocks. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t)
    | ⟨6, _⟩ => out0_6 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t)
    | ⟨7, _⟩ => out0_7 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t)
    | ⟨8, _⟩ => out0_8 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t)
  Φ _ := Pipeline.ΦA spec0 c
  q _ := fullShare
  owed _ := 0

theorem A_eq0 : (dat0 V c).A w = V c (Pipeline.arrRef spec0 w) := rfl

theorem after0_5 : (dat0 V c).after 5 t = out0_5 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t) := by dsimp only [dat0]
theorem after0_6 : (dat0 V c).after 6 t = out0_6 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t) := by dsimp only [dat0]
theorem after0_7 : (dat0 V c).after 7 t = out0_7 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t) := by dsimp only [dat0]
theorem after0_8 : (dat0 V c).after 8 t = out0_8 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t) := by dsimp only [dat0]

/-- What `dat0` says at point `t`: an input window holds its block before and after the body; the invariant and the dues are those of the position before. -/
theorem at0 : (∀ d, (dat0 V c).before 0 t d = iblk0 V c 0 t) ∧ (∀ d, (dat0 V c).before 1 t d = iblk0 V c 1 t) ∧ (∀ d, (dat0 V c).before 2 t d = iblk0 V c 2 t)
    ∧ (∀ d, (dat0 V c).before 3 t d = iblk0 V c 3 t) ∧ (∀ d, (dat0 V c).before 4 t d = iblk0 V c 4 t)
    ∧ (dat0 V c).after 0 t = iblk0 V c 0 t ∧ (dat0 V c).after 1 t = iblk0 V c 1 t ∧ (dat0 V c).after 2 t = iblk0 V c 2 t
    ∧ (dat0 V c).after 3 t = iblk0 V c 3 t ∧ (dat0 V c).after 4 t = iblk0 V c 4 t
    ∧ (dat0 V c).Φ t.succ = (dat0 V c).Φ t.castSucc ∧ (dat0 V c).owesAt () t.succ = (dat0 V c).owesAt () t.castSucc := by
  refine ⟨?_, ?_, ?_, ?_, ?_, rfl, rfl, rfl, rfl, rfl, rfl, rfl⟩ <;>
    exact (dat0 V c).before_in_eq_fetched _ rfl (fun _ => rfl) (fun _ _ _ => rfl) (fun _ => rfl) t

/-- The windows hold the input blocks, so the run applies; a covering list of stores reads back the same through any view, over any prior contents. -/
theorem body_obligation0 : BodyObligation (dat0 (F := F) V c) (defs₀ (F := F)) Variants.none () Set.univ := fun t => by
  rw [bigSep_W0, bigSep_W0]
  simp only [at0 V c t, after0_5, after0_6, after0_7, after0_8, out0_5, out0_6, out0_7, out0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 ..).2.2.2.2 Set.univ _)
  iframe
  isplitl [H5]; · iexists _; iexact H5
  isplitl [H6]; · iexists _; iexact H6
  isplitl [H7]; · iexists _; iexact H7
  isplitl [H8]; · iexists _; iexact H8
  iintro ⟨H0, H1, H2, H3, H4, ⟨%e5, H5⟩, ⟨%e6, H6⟩, ⟨%e7, H7⟩, ⟨%e8, H8⟩⟩
  iframe
  unfold owns
  isplitl [H5]; · iexists _; isplitr; swap; iexact H5; ipureintro; exact View.read_writes_of_cover _ _ _ _ _ fun _ => cover0_5 ..
  isplitl [H6]; · iexists _; isplitr; swap; iexact H6; ipureintro; exact View.read_writes_of_cover _ _ _ _ _ fun _ => cover0_6 ..
  isplitl [H7]; · iexists _; isplitr; swap; iexact H7; ipureintro; exact View.read_writes_of_cover _ _ _ _ _ fun _ => cover0_7 ..
  iexists _; isplitr; swap; iexact H8; ipureintro; exact View.read_writes_of_cover _ _ _ _ _ fun _ => cover0_8 ..

end Cert.Kernel.Hand

end
-- ==== Proof.K.R1Runs.lean ====
import proofs.«143630_j6073083756839_1_alg».proof.Proof.K.R0

noncomputable section

namespace Cert.Kernel.Hand

open Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

abbrev ms1_0 (t : Fin cfg1.N) : Memref sig .tc .vmem S1x256x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x1024 .f32 := win1_6.stage (cfg1.slots t 6)
abbrev hs1_6 (t : Fin cfg1.N) : (ms1_6 t).IsWhole := hstage1_6 ((cfg1.slots t 6).cast nbuf1_6)
abbrev VO1_6 : View sig .tc .vmem S1x256x1024 .f32 := (Memref.whole cc1_stg6_0 : Memref sig .tc .vmem S1x256x1024 .f32).view
abbrev scM1_0 : Memref sig .tc .vmem S256x2048 .f32 := Memref.whole cc1_scratch0
abbrev VS1_0 : View sig .tc .vmem S256x2048 .f32 := scM1_0.view

abbrev others1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1_0 fullShare d) ∗ others1 c) := by
  rw [Pipeline.scopedRest_split_of_list spec1 c [cc1_scratch0] (by decide) (by decide)]
  simp only [scM1_0, owns_whole, bigSepL]; try rfl

end Cert.Kernel.Hand

end
-- ==== Proof.K.R1RunA.lean ====
import proofs.«143630_j6073083756839_1_alg».proof.Proof.K.R1Runs

noncomputable section

namespace Cert.Kernel.Hand

open Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

noncomputable def kernelRun1_A (c : Dev nD) (i : grid1.Coords) (arg3 : Memref sig .tc .vmem S1x256x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32) :
    Σ' (L6 : List (View.Piece (Elt F) S1x256x1024 .f32)), { LS0 : List (View.Piece (Elt F) S256x2048 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨[], ?_, fun xi6 E K => ?run⟩
  case run =>
    simp only [cc1_kernel_b_eq_skeleton]; unfold cc1_kernel_b_skel
    rw [owns_unread harg3, owns_unread harg4, owns_unread harg5, owns_unread harg6, owns_unread harg7, owns_unread harg8, owns_unread harg9]
    unfold owns
    iintro ⟨H0, H1, H2, H3, H4, H5, H6, ⟨%ds0, %fs0, -, HS0⟩, Hk⟩
    sl_exec (disch := first | exact hc0 | exact hc1)
    sl_step
    iapply Hk
    iframe H0 H1 H2 H3 H4 H5 H6
    iexists _; iexact HS0

end Cert.Kernel.Hand

end
-- ==== Proof.K.R1RunB.lean ====
import proofs.«143630_j6073083756839_1_alg».proof.Proof.K.R1RunA

noncomputable section

namespace Cert.Kernel.Hand

open Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

noncomputable def kernelRun1_B (c : Dev nD) (i : grid1.Coords) (arg3 : Memref sig .tc .vmem S1x256x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32) (xs0 : Vec F S256x2048 .f32) :
    Σ' (L6 : List (View.Piece (Elt F) S1x256x1024 .f32)), { LS0 : List (View.Piece (Elt F) S256x2048 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨[], ?_, fun xi6 E K => ?run⟩
  case run =>
    simp only [cc1_kernel_b_eq_skeleton]; unfold cc1_kernel_b_skel
    rw [owns_unread harg3, owns_unread harg4, owns_unread harg5, owns_unread harg6, owns_unread harg7, owns_unread harg8, owns_unread harg9, owns_unread harg10]
    iintro ⟨H0, H1, H2, H3, H4, H5, H6, HS0, Hk⟩
    sl_exec (disch := first | exact hc0 | exact hc1)
    sl_step
    iapply Hk
    iframe H0 H1 H2 H3 H4 H5 H6
    iexists _; iexact HS0

end Cert.Kernel.Hand

end
-- ==== Proof.K.R1RunC.lean ====
import proofs.«143630_j6073083756839_1_alg».proof.Proof.K.R1RunB

noncomputable section

namespace Cert.Kernel.Hand

open Cert.Kernel.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

noncomputable def kernelRun1_C (c : Dev nD) (i : grid1.Coords) (arg3 : Memref sig .tc .vmem S1x256x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32) (xs0 : Vec F S256x2048 .f32) :
    Σ' (L6 : List (View.Piece (Elt F) S1x256x1024 .f32)), { LS0 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨?_, ?_, fun E K => ?run⟩
  case run =>
    simp only [cc1_kernel_b_eq_skeleton]; unfold cc1_kernel_b_skel
    rw [owns_unread harg3, owns_unread harg4, owns_unread harg5, owns_unread harg6, owns_unread harg7, owns_unread harg8, owns_unread harg10]
    unfold owns
    iintro ⟨H0, H1, H2, H3, H4, H5, ⟨%d6, %f6, -, H6⟩, HS0, Hk⟩
    sl_exec (disch := first | exact hc0 | exact hc1)
    sl_step
    iapply Hk
    iframe H0 H1 H2 H3 H4 H5
    isplitl [H6]; · iexists _; iexact H6
    iexists _; iexact HS0

end Cert.Kernel.Hand

end
-- ==== Proof.K.R1.lean ====
import proofs.«143630_j6073083756839_1_alg».proof.Proof.K.R1RunC

noncomputable section

namespace Cert.Kernel.Hand

open Cert.Kernel.Gen
open Idealize.ShloMosaic Idealize.ShloMosaic.TcCoe
open Idealize.SL.RA Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Args

variable (c : Dev nD) (i : grid1.Coords) (arg3 : Memref sig .tc .vmem S1x256x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole)

section A

variable (hc0 : cond1_0 i) (hc1 : ¬cond1_1 i) (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32)

/-- Key tile 0 writes no output: this value is never read. -/
def out1_A_6 : Vec F S1x256x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)

theorem scover1_A_0 (y : S256x2048.Idx) : ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL _ S256x2048.size (by sl_kernel_rfl) y

/-- The accumulator after key tile 0. -/
def sout1_A_0 : Vec F S256x2048 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4 x5).2.1)

end A

section B

variable (hc0 : ¬cond1_0 i) (hc1 : ¬cond1_1 i) (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32) (xs0 : Vec F S256x2048 .f32)

/-- Nor do key tiles 1 and 2. -/
def out1_B_6 : Vec F S1x256x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xs0).1)

theorem scover1_B_0 (y : S256x2048.Idx) : ∃ pc ∈ (kernelRun1_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL _ S256x2048.size (by sl_kernel_rfl) y

/-- The accumulator after key tile 1 or 2, from `xs0` before it. -/
def sout1_B_0 : Vec F S256x2048 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 x5 xs0).2.1)

end B

section C

variable (hc0 : ¬cond1_0 i) (hc1 : cond1_1 i) (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32) (xs0 : Vec F S256x2048 .f32)

theorem cover1_C_6 (y : S1x256x1024.Idx) : ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL _ S1x256x1024.size (by sl_kernel_rfl) y

/-- The output block key tile 3 stores. -/
def out1_C_6 : Vec F S1x256x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)

theorem scover1_C_0 (y : S256x2048.Idx) : ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL _ S256x2048.size (by sl_kernel_rfl) y

/-- The accumulator after key tile 3, from `xs0` before it. -/
def sout1_C_0 : Vec F S256x2048 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 x5 xs0).2.1)

end C

end Args

/-- `f` at point `t`: at its coordinates, its memrefs with the accumulator, and its six input blocks. -/
abbrev at1 {P Q : grid1.Coords → Prop} {β : Type} (c : Dev nD) (t : Fin cfg1.N)
    (f : (i : grid1.Coords) → (a3 : Memref sig .tc .vmem S1x256x128 .bf16) → a3.IsWhole → (a4 : Memref sig .tc .vmem S1x512x128 .bf16) → a4.IsWhole → (a5 : Memref sig .tc .vmem S1x512x2048 .bf16) → a5.IsWhole → (a6 : Memref sig .tc .vmem S1x256x2048 .bf16) → a6.IsWhole → (a7 : Memref sig .tc .vmem S2048x1024 .bf16) → a7.IsWhole → (a8 : Memref sig .tc .vmem S1x1024 .f32) → a8.IsWhole → (a9 : Memref sig .tc .vmem S1x256x1024 .f32) → a9.IsWhole → (a10 : Memref sig .tc .vmem S256x2048 .f32) → a10.IsWhole → P i → Q i →
      Vec F S1x256x128 .bf16 → Vec F S1x512x128 .bf16 → Vec F S1x512x2048 .bf16 → Vec F S1x256x2048 .bf16 → Vec F S2048x1024 .bf16 → Vec F S1x1024 .f32 → β)
    (h0 : P (grid1.coords t)) (h1 : Q (grid1.coords t)) : β :=
  f (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) h0 h1 (iblk1 V c 0 t) (iblk1 V c 1 t) (iblk1 V c 2 t) (iblk1 V c 3 t) (iblk1 V c 4 t) (iblk1 V c 5 t)

theorem nc0 {t : Fin cfg1.N} (h : ¬t.val % 4 = 0) : ¬cond1_0 (grid1.coords t) := fun h' => h ((hcond1_0 t).mp h')
theorem nc1 {t : Fin cfg1.N} (h : ¬t.val % 4 = 3) : ¬cond1_1 (grid1.coords t) := fun h' => h ((hcond1_1 t).mp h')

/-- One point's step from the accumulator `xs` before it: the key tile selects the case, and key tile 0 ignores `xs`. -/
def step1 (c : Dev nD) (t : Fin cfg1.N) (xs : Vec F S256x2048 .f32) : Vec F S1x256x1024 .f32 × Vec F S256x2048 .f32 :=
  if h0 : t.val % 4 = 0 then
    (at1 V c t (out1_A_6 c) ((hcond1_0 t).mpr h0) (nc1 (by omega)), at1 V c t (sout1_A_0 c) ((hcond1_0 t).mpr h0) (nc1 (by omega)))
  else if h1 : t.val % 4 = 3 then
    (at1 V c t (out1_C_6 c) (nc0 h0) ((hcond1_1 t).mpr h1) xs, at1 V c t (sout1_C_0 c) (nc0 h0) ((hcond1_1 t).mpr h1) xs)
  else
    (at1 V c t (out1_B_6 c) (nc0 h0) (nc1 h1) xs, at1 V c t (sout1_B_0 c) (nc0 h0) (nc1 h1) xs)

/-- The pair (output block, accumulator) after position `n`, by recursion on `n`. -/
def outsAt1 (c : Dev nD) : (n : ℕ) → n < cfg1.N → Vec F S1x256x1024 .f32 × Vec F S256x2048 .f32
  | 0, hn => step1 V c ⟨0, hn⟩ (VS1_0.read (Elt F) VS1_0.junk)
  | n + 1, hn => step1 V c ⟨n + 1, hn⟩ (outsAt1 c n (Nat.lt_of_succ_lt hn)).2

theorem outsAt1_A (c : Dev nD) (t : Fin cfg1.N) (h0 : t.val % 4 = 0) (h1 : ¬t.val % 4 = 3) :
    outsAt1 V c t.val t.isLt = (at1 V c t (out1_A_6 c) ((hcond1_0 t).mpr h0) (nc1 h1), at1 V c t (sout1_A_0 c) ((hcond1_0 t).mpr h0) (nc1 h1)) := by
  obtain ⟨n, hn⟩ := t
  cases n <;> (show step1 V c _ _ = _; exact dif_pos h0)

theorem outsAt1_B (c : Dev nD) (t : Fin cfg1.N) (h0 : ¬t.val % 4 = 0) (h1 : ¬t.val % 4 = 3) :
    outsAt1 V c t.val t.isLt = (at1 V c t (out1_B_6 c) (nc0 h0) (nc1 h1) (outsAt1 V c (t.val - 1) (Nat.lt_of_le_of_lt (Nat.sub_le _ _) t.isLt)).2, at1 V c t (sout1_B_0 c) (nc0 h0) (nc1 h1) (outsAt1 V c (t.val - 1) (Nat.lt_of_le_of_lt (Nat.sub_le _ _) t.isLt)).2) := by
  obtain ⟨n, hn⟩ := t
  cases n with
  | zero => exact (h0 (Nat.zero_mod _)).elim
  | succ n => exact ((dif_neg h0).trans (dif_neg h1) : step1 V c _ _ = _)

theorem outsAt1_C (c : Dev nD) (t : Fin cfg1.N) (h0 : ¬t.val % 4 = 0) (h1 : t.val % 4 = 3) :
    outsAt1 V c t.val t.isLt = (at1 V c t (out1_C_6 c) (nc0 h0) ((hcond1_1 t).mpr h1) (outsAt1 V c (t.val - 1) (Nat.lt_of_le_of_lt (Nat.sub_le _ _) t.isLt)).2, at1 V c t (sout1_C_0 c) (nc0 h0) ((hcond1_1 t).mpr h1) (outsAt1 V c (t.val - 1) (Nat.lt_of_le_of_lt (Nat.sub_le _ _) t.isLt)).2) := by
  obtain ⟨n, hn⟩ := t
  cases n with
  | zero => exact (h0 (Nat.zero_mod _)).elim
  | succ n => exact ((dif_neg h0).trans (dif_pos h1) : step1 V c _ _ = _)

theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA; rw [scopedRest1_split]

/-- The invariant before position `n`: only what the accumulator holds changes from point to point. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-- Forgetting what the accumulator holds, every position's invariant is the first one. -/
theorem PhiS1_any (c : Dev nD) (n : ℕ) (h : n ≤ cfg1.N) :
    PhiS1 V c n h ⊢ iprop(iprop((∃ d, owns (c : Thread nD τ) scM1_0 fullShare d) ∗ others1 c) ∗ (∃ r, prngReg c r)) := by
  by_cases hz : n = 0
  · subst hz; exact Entails.of_eq (PhiA1_eq c)
  · rw [PhiS1_pos V c n h hz]
    iintro ⟨⟨HS0, Hoth⟩, Hg⟩
    iframe Hoth Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem after1_6 (c : Dev nD) (t : Fin cfg1.N) : (dat1 V c).after 6 t = (outsAt1 V c t.val t.isLt).1 := rfl

/-- The facts about `dat1` at point `t` the obligation rewrites by: an input window holds its block of the array, and the rest unfolds. -/
theorem pt1 (c : Dev nD) (t : Fin cfg1.N) : (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) ∧ (∀ d, (dat1 V c).before 5 t d = iblk1 V c 5 t)
    ∧ (dat1 V c).after 0 t = iblk1 V c 0 t ∧ (dat1 V c).after 1 t = iblk1 V c 1 t ∧ (dat1 V c).after 2 t = iblk1 V c 2 t
    ∧ (dat1 V c).after 3 t = iblk1 V c 3 t ∧ (dat1 V c).after 4 t = iblk1 V c 4 t ∧ (dat1 V c).after 5 t = iblk1 V c 5 t
    ∧ (dat1 V c).Φ t.succ = iprop(iprop(owns (c : Thread nD τ) scM1_0 fullShare (outsAt1 V c t.val t.isLt).2 ∗ others1 c) ∗ (∃ r, prngReg c r))
    ∧ (dat1 V c).Φ t.castSucc = PhiS1 V c t.val (Nat.le_of_lt t.isLt) ∧ (dat1 V c).owesAt () t.succ = (dat1 V c).owesAt () t.castSucc := by
  refine ⟨?_, ?_, ?_, ?_, ?_, ?_, rfl, rfl, rfl, rfl, rfl, rfl, rfl, rfl, rfl⟩ <;>
    exact (dat1 V c).before_in_eq_fetched _ rfl (fun _ => rfl) (fun _ _ _ => rfl) (fun _ => rfl) t

/-- Each case's run framed by the invariant: the accumulator goes in as `outsAt1` has it before the point and comes back as it has it after. -/
theorem body_obligation1 (c : Dev nD) : BodyObligation (dat1 (F := F) V c) (defs₀ (F := F)) Variants.none () Set.univ := fun t => by
  rw [bigSep_W1, bigSep_W1]
  simp only [pt1 V c t, after1_6]
  show _ ⊢ wp frame _ Set.univ (bodyAt1 t) _
  by_cases h0 : t.val % 4 = 0
  · have h1 : ¬t.val % 4 = 3 := by omega
    rw [show idle1 6 (grid1.coords t) = true from idleAt1_6 t (nc1 h1), noFlush1_6 t (nc1 h1), outsAt1_A V c t h0 h1]
    dsimp only [at1]; unfold sout1_A_0
    refine (sep_mono (PhiS1_any V c _ _) .rfl).trans ?_
    iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A (hc0 := (hcond1_0 t).mpr h0) (hc1 := nc1 h1) ..).2.2 _ Set.univ _)
    iframe H0 H1 H2 H3 H4 H5 H6 HS0
    iintro ⟨H0, H1, H2, H3, H4, H5, H6, ⟨%f, HS0⟩⟩
    iframe Hoth Hg Ho H0 H1 H2 H3 H4 H5
    isplitl [HS0]
    · ihave H' := (Ring.owns_of_writes_tiledL VS1_0 S256x2048.size) $$ HS0; iapply H'; ipureintro; sl_kernel_rfl
    iexists _; iexact H6
  · rw [PhiS1_pos V c _ _ (by omega)]
    by_cases h1 : t.val % 4 = 3
    · rw [show idle1 6 (grid1.coords t) = false from liveAt1_6 t ((hcond1_1 t).mpr h1), outsAt1_C V c t h0 h1]
      dsimp only [at1]; unfold out1_C_6 sout1_C_0
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C (hc0 := nc0 h0) (hc1 := (hcond1_1 t).mpr h1) ..).2.2 Set.univ _)
      iframe H0 H1 H2 H3 H4 H5 HS0
      isplitl [H6]; · iexists _; iexact H6
      iintro ⟨H0, H1, H2, H3, H4, H5, ⟨%g, H6⟩, ⟨%f, HS0⟩⟩
      iframe Hoth Hg Ho H0 H1 H2 H3 H4 H5
      isplitl [HS0]
      · ihave H' := (Ring.owns_of_writes_tiledL VS1_0 S256x2048.size) $$ HS0; iapply H'; ipureintro; sl_kernel_rfl
      ihave H' := (Ring.owns_of_writes_tiledL VO1_6 S1x256x1024.size) $$ H6; iapply H'; ipureintro; sl_kernel_rfl
    · rw [show idle1 6 (grid1.coords t) = true from idleAt1_6 t (nc1 h1), noFlush1_6 t (nc1 h1), outsAt1_B V c t h0 h1]
      dsimp only [at1]; unfold sout1_B_0
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B (hc0 := nc0 h0) (hc1 := nc1 h1) ..).2.2 _ Set.univ _)
      iframe H0 H1 H2 H3 H4 H5 H6 HS0
      iintro ⟨H0, H1, H2, H3, H4, H5, H6, ⟨%f, HS0⟩⟩
      iframe Hoth Hg Ho H0 H1 H2 H3 H4 H5
      isplitl [HS0]
      · ihave H' := (Ring.owns_of_writes_tiledL VS1_0 S256x2048.size) $$ HS0; iapply H'; ipureintro; sl_kernel_rfl
      iexists _; iexact H6

theorem hin1 (c : Dev nD) : Pipeline.ΦA spec1 c ⊢ (dat1 V c).Φ 0 := Entails.of_eq rfl

theorem hout1 (c : Dev nD) : (dat1 V c).Φ (Fin.last cfg1.N) ⊢ Pipeline.ΦA spec1 c :=
  (PhiS1_any V c cfg1.N (Nat.le_refl _)).trans (Entails.of_eq (PhiA1_eq c).symm)

end Cert.Kernel.Hand

end
-- ==== Proof.K.Run.lean ====
import proofs.«143630_j6073083756839_1_alg».proof.Proof.K.R1

noncomputable section

namespace Cert.Kernel.Hand

open Cert.Kernel.Gen
open Idealize.ShloMosaic Idealize.ShloMosaic.TcCoe
open Idealize.SL Idealize.SL.RA Idealize.SL.BI
open Idealize.SL.BI.BIBase
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- `W1` with region 0's arrays replaced by their final contents `arrAt · N`. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_main_v10 (c : Dev nD) : W4 m c (Proc.devRef .tc main_v10) = (dat1 (V3 m) c).arrAt 6 cfg1.N :=
  Pipeline.withArrays_arr spec1 launch1.win.arr_inj c _ _ 6

abbrev wr : List (Ref sig .tc) := [main_v0, main_v1, main_v2, main_v4, main_v5, main_v6, main_v7, main_v8, main_v9]
abbrev args : List (Ref sig .tc) := [main_arg0, main_arg1, main_arg2, main_arg3, main_arg4, main_arg5, main_arg6]

/-- Both host stretches write only references of `wr`, so any other buffer passes through them unchanged. -/
theorem host_keeps (X : Valuation τ sig (Elt F)) {b : Ref sig .tc} (hb : b ∉ wr) :
    StableHlo.after hostOps0 X (Proc.devRef .tc b) = X (Proc.devRef .tc b)
      ∧ StableHlo.after hostOps1 X (Proc.devRef .tc b) = X (Proc.devRef .tc b) := by
  constructor <;> refine StableHlo.after_of_writes_sub (W := wr) _ X ?_ hb <;>
    simp only [List.Forall, StableHlo.unary_writes, StableHlo.reshape_writes, Finset.singleton_subset_iff, List.mem_toFinset,
      List.map_cons, List.mem_cons, true_or, or_true, and_self]

/-- What lets an argument through: no host stretch writes it, region 1 passes it by, region 0 passes it by or only reads it. -/
theorem args_ok : ∀ b ∈ args, ¬ (Proc.devRef .tc b : DevRef τ sig).isScoped ∧ b ∉ wr ∧ (∀ w, Pipeline.arrRef spec1 w ≠ b)
    ∧ ∀ w, Pipeline.arrRef spec0 w = b → (cfg0.win w).isOut = false := by decide

/-- Hence every argument ends at its launch contents: an input's array keeps its contents (`Dat.arrAt_in`). -/
theorem W4_arg (c : Dev nD) {b : Ref sig .tc} (hb : b ∈ args) : W4 m c (Proc.devRef .tc b) = m ((c : Thread nD τ).loc b) := by
  obtain ⟨-, hw, h1, h0⟩ := args_ok b hb
  refine (Pipeline.withArrays_of_ne spec1 c _ _ b h1).trans <| (host_keeps (W2 m c) hw).2.trans <|
    Eq.trans ?_ (host_keeps (W0 m c) hw).1
  by_cases h : ∃ w, Pipeline.arrRef spec0 w = b
  · obtain ⟨w, rfl⟩ := h
    exact (W2_arr m c w).trans (((dat0 (V1 m) c).arrAt_in w (h0 w rfl) _).trans (A_eq0 (V1 m) c w))
  · exact W2_of_ne m c b fun w e => h ⟨w, e⟩

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A thread state between segments: every buffer held at `W`, and `R`. -/
abbrev St (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

section Region

variable (p : Fin 2) (lf : Pipeline.LaunchFacts (nD := nD) (τ := τ) cfgs p) (Wi : Dev nD → Valuation τ sig (Elt F))

abbrev Vof (c : Dev nD) (b : Ref sig .tc) : Buf (Elt F) ((c : Thread nD τ).loc b) := Wi c b
abbrev Aout (c : Dev nD) (w : Fin (cfgs p).W) := (pdats m p c).arrAt w (cfgs p).N
/-- `Wi` with region `p`'s arrays replaced by their final contents. -/
abbrev Wout (c : Dev nD) : Valuation τ sig (Elt F) := Pipeline.withArrays (cfgs p).spec c (Wi c) (Aout m p c)

set_option backward.isDefEq.respectTransparency.types false in
/-- Region `p` as a segment: its arrays are split out of the buffers held at `Wi`, and put back among them at `Wout`. -/
def reg (hq : ∀ c w, (pdats m p c).q w = fullShare) (howed : ∀ c t, (pdats m p c).owed t = 0)
    (hrec : ∀ c t, (pdats m p c).recorded t = Set.univ)
    (hA : ∀ c w, (pdats m p c).A w = Vof Wi c (Pipeline.arrRef (cfgs p).spec w))
    (hbody : ∀ c, BodyObligation (pdats m p c) defs₀ 𝒱₀ () Set.univ)
    (hin : ∀ c, Pipeline.ΦA (cfgs p).spec c ⊢ (pdats m p c).Φ 0)
    (hout : ∀ c, (pdats m p c).Φ (Fin.last _) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := St Wi
  post := St (Wout m p Wi)
  X c := iprop(∃ r, prngReg c r)
  Y c := iprop(∃ r, prngReg c r)
  Z c := Pipeline.unscopedRest (cfgs p).spec c (Vof Wi c)
  hentry c := by
    unfold Pipeline.Dat.owesAt Pipeline.owesWithin Pipeline.Dat.bound
    rw [Pipeline.ownSems0_none, howed c, hrec c]
    have hsplit := Pipeline.arrays_of_unscopedBufs (p := p) (pcfgs (F := F)) adm (pdats m) lf.win lf.arr_whole c
      ((pdats m p c).share_full (hq c)) (Vof Wi c) (hA c)
    rw [Pipeline.unscopedBufs_held] at hsplit
    iintro ⟨⟨Hub, Hp, HO⟩, -, -⟩
    icases hsplit $$ Hub with ⟨Ha, Hrest⟩
    imodintro
    isplitl [Ha]; · iexact Ha
    isplitr; · unfold Pipeline.prefHeld; rw [Finset.univ_eq_empty, BI.bigSep_empty]; iempintro
    isplitl [HO]
    · icases HO with ⟨%W, HO⟩; iexists W; isplitr; · ipureintro; exact fun _ _ => Or.inl trivial
      iexact HO
    isplitl [Hp] <;> iassumption
  hin c := by
    refine .trans ?_ (hin c); unfold Pipeline.ΦA
    iintro ⟨Hp, -, Hr⟩
    isplitl [Hr] <;> iassumption
  hout c := by
    rw [Pipeline.ownSems0_none]; exact (hout c).trans (BI.sep_comm.trans (BI.sep_mono (BI.Entails.refl _) BI.emp_sep_intro))
  hexit c := by
    unfold Pipeline.Dat.owesAt Pipeline.owesWithin
    rw [howed c]
    have hjoin := Pipeline.unscopedBufs_of_arrays (p := p) (pcfgs (F := F)) adm
      lf.win lf.arr_whole c (pdats m) ((pdats m p c).share_full (hq c))
      (Vof Wi c) (Vof (Wout m p Wi) c) (Aout m p c)
      (fun w => (Pipeline.withArrays_arr _ lf.win.arr_inj c (Wi c) (Aout m p c) w).symm)
      fun b hb => Pipeline.withArrays_of_ne _ c (Wi c) (Aout m p c) b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Region

abbrev reg0 := reg m 0 launch0 (W1 m) (fun _ _ => rfl) (fun _ _ => rfl) (fun _ _ => rfl) (fun _ _ => rfl) (body_obligation0 (V1 m)) (fun _ => .rfl) (fun _ => .rfl)
abbrev reg1 := reg m 1 launch1 (W3 m) (fun _ _ => rfl) (fun _ _ => rfl) (fun _ _ => rfl) (fun _ _ => rfl) (body_obligation1 (V3 m)) (hin1 (V3 m)) (hout1 (V3 m))

abbrev u₀ := initOf (Pipeline.cells cfgs cellOf_inj) (Pipeline.launchToks cfgs cellOf_inj)
abbrev segs : List (Pipeline.Seg (pcfgs (F := F)) adm (pdats m) () defs₀ 𝒱₀ L lv) :=
  [ .host (hseg hostOps0 hostOps0_sub (W0 m)),
    .region (reg0 m),
    .host (hseg hostOps1 hostOps1_sub (W2 m)),
    .region (reg1 m) ]
theorem main_run (c : Dev nD) : main (F := F) c = Pipeline.Seg.run (segs m) := (main_chain c).trans (by chain_rfl)

set_option backward.isDefEq.respectTransparency.types false in
/-- The four segments chain from `St W0` to `Tₙ`, whose held buffers are then read off the final memory. -/
theorem run_main : θ_run defs (onTc (τ := τ) (main (F := F))) ⟨m, fun _ => 0, ρ⟩ (fun r => ∀ c : Dev nD,
      r.2.mem ((c.tc : Thread nD τ).loc main_v10) = W4 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := u₀)
    (hu₀ := by
      rw [BI.bigSep_emp_const]
      iintro Hu; imodintro
      isplitl [Hu]; · iapply (show (ownU u₀ : sProp 𝕄) ⊢ BI.own (emb₁ u₀) from .rfl); iexact Hu
      iempintro)
    (T₀ := St (W0 m)) (Tₙ := Tₙ m)
    (hch := ⟨fun _ => .rfl, fun _ => .rfl, fun _ => .rfl, fun _ => .rfl, fun _ => sep_assoc'⟩)
    (hinit := by
      refine Pipeline.initEach L lv fun c => ?_
      erw [Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all _ _ (W4 m c) s')
      isplitl [Hh] <;> iassumption)
    (hQ := fun s h c =>
      have k b (hb : b ∈ args) := (h c _ (mem_uc b (args_ok b hb).1)).trans (W4_arg m c hb)
      ⟨h c _ (mem_uc main_v10 (by decide)), k main_arg0 (by decide), k main_arg1 (by decide), k main_arg2 (by decide),
       k main_arg3 (by decide), k main_arg4 (by decide), k main_arg5 (by decide), k main_arg6 (by decide)⟩)

end Cert.Kernel.Hand

end
-- ==== Proof.KI.R0.lean ====
import proofs.«143630_j6073083756839_1_alg».proof.Proof.Gen.KernelIdeal.Launch
import proofs.«143630_j6073083756839_1_alg».proof.Proof.Gen.KernelIdeal.Skeleton
import proofs.«143630_j6073083756839_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))
  (c : Dev nD) (i : grid0.Coords)
  (arg1 : Memref sig .tc .vmem S256x1024 .f32) (harg1 : arg1.IsWhole)
  (arg2 : Memref sig .tc .vmem S1024x4224 .bf16) (harg2 : arg2.IsWhole)
  (arg3 : Memref sig .tc .vmem S1x4224 .f32) (harg3 : arg3.IsWhole)
  (arg4 : Memref sig .tc .vmem S2x128 .f32) (harg4 : arg4.IsWhole)
  (arg5 : Memref sig .tc .vmem S2x128 .f32) (harg5 : arg5.IsWhole)
  (arg6 : Memref sig .tc .vmem S256x128 .bf16) (harg6 : arg6.IsWhole)
  (arg7 : Memref sig .tc .vmem S256x128 .bf16) (harg7 : arg7.IsWhole)
  (arg8 : Memref sig .tc .vmem S256x2048 .bf16) (harg8 : arg8.IsWhole)
  (arg9 : Memref sig .tc .vmem S256x2048 .bf16) (harg9 : arg9.IsWhole)
  (x0 : Vec F S256x1024 .f32) (x1 : Vec F S1024x4224 .bf16) (x2 : Vec F S1x4224 .f32) (x3 : Vec F S2x128 .f32) (x4 : Vec F S2x128 .f32)
  (w : Fin cfg0.W) (t : Fin cfg0.N)

/-- The block of window `w`'s array that point `t` addresses, at the contents `V`. -/
def iblk0 : ((cfg0.win w).xblock (cfg0.grid.coords t)).Idx → Elt F (cfg0.win w).elt :=
  ((cfg0.win w).blk t).view.read (Elt F) (V c (Pipeline.arrRef spec0 w))

abbrev ms0_0 : Memref sig .tc .vmem S256x1024 .f32 := win0_0.stage (cfg0.slots t 0)
abbrev hs0_0 : (ms0_0 t).IsWhole := hstage0_0 ((cfg0.slots t 0).cast nbuf0_0)
abbrev ms0_1 : Memref sig .tc .vmem S1024x4224 .bf16 := win0_1.stage (cfg0.slots t 1)
abbrev hs0_1 : (ms0_1 t).IsWhole := hstage0_1 ((cfg0.slots t 1).cast nbuf0_1)
abbrev ms0_2 : Memref sig .tc .vmem S1x4224 .f32 := win0_2.stage (cfg0.slots t 2)
abbrev hs0_2 : (ms0_2 t).IsWhole := hstage0_2 ((cfg0.slots t 2).cast nbuf0_2)
abbrev ms0_3 : Memref sig .tc .vmem S2x128 .f32 := win0_3.stage (cfg0.slots t 3)
abbrev hs0_3 : (ms0_3 t).IsWhole := hstage0_3 ((cfg0.slots t 3).cast nbuf0_3)
abbrev ms0_4 : Memref sig .tc .vmem S2x128 .f32 := win0_4.stage (cfg0.slots t 4)
abbrev hs0_4 : (ms0_4 t).IsWhole := hstage0_4 ((cfg0.slots t 4).cast nbuf0_4)
abbrev ms0_5 : Memref sig .tc .vmem S256x128 .bf16 := win0_5.stage (cfg0.slots t 5)
abbrev hs0_5 : (ms0_5 t).IsWhole := hstage0_5 ((cfg0.slots t 5).cast nbuf0_5)
abbrev ms0_6 : Memref sig .tc .vmem S256x128 .bf16 := win0_6.stage (cfg0.slots t 6)
abbrev hs0_6 : (ms0_6 t).IsWhole := hstage0_6 ((cfg0.slots t 6).cast nbuf0_6)
abbrev ms0_7 : Memref sig .tc .vmem S256x2048 .bf16 := win0_7.stage (cfg0.slots t 7)
abbrev hs0_7 : (ms0_7 t).IsWhole := hstage0_7 ((cfg0.slots t 7).cast nbuf0_7)
abbrev ms0_8 : Memref sig .tc .vmem S256x2048 .bf16 := win0_8.stage (cfg0.slots t 8)
abbrev hs0_8 : (ms0_8 t).IsWhole := hstage0_8 ((cfg0.slots t 8).cast nbuf0_8)
abbrev VO0_5 : View sig .tc .vmem S256x128 .bf16 := (Memref.whole cc0_stg5_0 : Memref sig .tc .vmem S256x128 .bf16).view
abbrev VO0_6 : View sig .tc .vmem S256x128 .bf16 := (Memref.whole cc0_stg6_0 : Memref sig .tc .vmem S256x128 .bf16).view
abbrev VO0_7 : View sig .tc .vmem S256x2048 .bf16 := (Memref.whole cc0_stg7_0 : Memref sig .tc .vmem S256x2048 .bf16).view
abbrev VO0_8 : View sig .tc .vmem S256x2048 .bf16 := (Memref.whole cc0_stg8_0 : Memref sig .tc .vmem S256x2048 .bf16).view

/-- A whole memref reads injectively, so owning it at `x` pins what it holds. -/
theorem owns_unread {c : Dev nD} {sp : Space} {s : Shape} {e : EltTy} {m : Memref sig .tc sp s e} (h : m.IsWhole) (x : s.Idx → Elt F e) :
    (owns (c : Thread nD τ) m fullShare x : sProp 𝕄) = iprop(m.view.loc (c : Thread nD τ) ↦[m.view.set]{fullShare} h.unread x) := by
  unfold owns
  refine Entails.antisymm (show (_ : sProp 𝕄) ⊢ _ from ?_) (show (_ : sProp 𝕄) ⊢ _ from ?_)
  · iintro ⟨%f, %hf, H⟩; obtain rfl := h.eq_unread hf; iexact H
  · iintro H; iexists _; isplitr; · ipureintro; exact h.read_unread _
    iexact H

/-- The body's run on whole memrefs: inputs unchanged, each output written with its list of pieces. -/
def kernelRun0 :
    Σ' (L5 : List (View.Piece (Elt F) S256x128 .bf16)) (L6 : List (View.Piece (Elt F) S256x128 .bf16)) (L7 : List (View.Piece (Elt F) S256x2048 .bf16)), { L8 : List (View.Piece (Elt F) S256x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8)) -∗ K ⟨⟩))
          ⊢ wp frame (wpE (defs₀ (F := F)) Variants.none c none) E (cc0_kernel_a i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_kernel_a_eq_skeleton]; unfold cc0_kernel_a_skel
    simp only [k0_part1_eq_skeleton]
    rw [owns_unread harg1, owns_unread harg2, owns_unread harg3, owns_unread harg4, owns_unread harg5]
    unfold owns
    iintro ⟨H0, H1, H2, H3, H4, ⟨%d5, %f5, -, H5⟩, ⟨%d6, %f6, -, H6⟩, ⟨%d7, %f7, -, H7⟩, ⟨%d8, %f8, -, H8⟩, Hk⟩
    sl_exec
    sl_step
    iapply Hk
    iframe H0 H1 H2 H3 H4
    isplitl [H5]; · iexists _; iexact H5
    isplitl [H6]; · iexists _; iexact H6
    isplitl [H7]; · iexists _; iexact H7
    iexists _; iexact H8

/-- The stores into an output tile its shape, hence cover it; what they leave is read back through a fixed view. -/
theorem cover0_5 (y : S256x128.Idx) : ∃ pc ∈ (kernelRun0 c i _ harg1 _ harg2 _ harg3 _ harg4 _ harg5 _ harg6 _ harg7 _ harg8 _ harg9 x0 x1 x2 x3 x4).1, y ∈ pc.1.set :=
  View.cover_of_tiledL _ S256x128.size (by sl_kernel_rfl) y

def out0_5 : Vec F S256x128 .bf16 :=
  VO0_5.read (Elt F) (VO0_5.writes (Elt F) VO0_5.junk (kernelRun0 c i _ harg1 _ harg2 _ harg3 _ harg4 _ harg5 _ harg6 _ harg7 _ harg8 _ harg9 x0 x1 x2 x3 x4).1)

theorem cover0_6 (y : S256x128.Idx) : ∃ pc ∈ (kernelRun0 c i _ harg1 _ harg2 _ harg3 _ harg4 _ harg5 _ harg6 _ harg7 _ harg8 _ harg9 x0 x1 x2 x3 x4).2.1, y ∈ pc.1.set :=
  View.cover_of_tiledL _ S256x128.size (by sl_kernel_rfl) y

def out0_6 : Vec F S256x128 .bf16 :=
  VO0_6.read (Elt F) (VO0_6.writes (Elt F) VO0_6.junk (kernelRun0 c i _ harg1 _ harg2 _ harg3 _ harg4 _ harg5 _ harg6 _ harg7 _ harg8 _ harg9 x0 x1 x2 x3 x4).2.1)

theorem cover0_7 (y : S256x2048.Idx) : ∃ pc ∈ (kernelRun0 c i _ harg1 _ harg2 _ harg3 _ harg4 _ harg5 _ harg6 _ harg7 _ harg8 _ harg9 x0 x1 x2 x3 x4).2.2.1, y ∈ pc.1.set :=
  View.cover_of_tiledL _ S256x2048.size (by sl_kernel_rfl) y

def out0_7 : Vec F S256x2048 .bf16 :=
  VO0_7.read (Elt F) (VO0_7.writes (Elt F) VO0_7.junk (kernelRun0 c i _ harg1 _ harg2 _ harg3 _ harg4 _ harg5 _ harg6 _ harg7 _ harg8 _ harg9 x0 x1 x2 x3 x4).2.2.1)

theorem cover0_8 (y : S256x2048.Idx) : ∃ pc ∈ (kernelRun0 c i _ harg1 _ harg2 _ harg3 _ harg4 _ harg5 _ harg6 _ harg7 _ harg8 _ harg9 x0 x1 x2 x3 x4).2.2.2.1, y ∈ pc.1.set :=
  View.cover_of_tiledL _ S256x2048.size (by sl_kernel_rfl) y

def out0_8 : Vec F S256x2048 .bf16 :=
  VO0_8.read (Elt F) (VO0_8.writes (Elt F) VO0_8.junk (kernelRun0 c i _ harg1 _ harg2 _ harg3 _ harg4 _ harg5 _ harg6 _ harg7 _ harg8 _ harg9 x0 x1 x2 x3 x4).2.2.2.1)

/-- Region 0's proof data: an input window keeps its block, an output window gets what the run leaves from the input blocks. -/
def dat0 : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t)
    | ⟨6, _⟩ => out0_6 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t)
    | ⟨7, _⟩ => out0_7 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t)
    | ⟨8, _⟩ => out0_8 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t)
  Φ _ := Pipeline.ΦA spec0 c
  q _ := fullShare
  owed _ := 0

theorem A_eq0 : (dat0 V c).A w = V c (Pipeline.arrRef spec0 w) := rfl

theorem after0_5 : (dat0 V c).after 5 t = out0_5 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t) := by dsimp only [dat0]
theorem after0_6 : (dat0 V c).after 6 t = out0_6 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t) := by dsimp only [dat0]
theorem after0_7 : (dat0 V c).after 7 t = out0_7 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t) := by dsimp only [dat0]
theorem after0_8 : (dat0 V c).after 8 t = out0_8 c (grid0.coords t) _ (hs0_0 t) _ (hs0_1 t) _ (hs0_2 t) _ (hs0_3 t) _ (hs0_4 t) _ (hs0_5 t) _ (hs0_6 t) _ (hs0_7 t) _ (hs0_8 t) (iblk0 V c 0 t) (iblk0 V c 1 t) (iblk0 V c 2 t) (iblk0 V c 3 t) (iblk0 V c 4 t) := by dsimp only [dat0]

/-- What `dat0` says at point `t`: an input window holds its block before and after the body; the invariant and the dues are those of the position before. -/
theorem at0 : (∀ d, (dat0 V c).before 0 t d = iblk0 V c 0 t) ∧ (∀ d, (dat0 V c).before 1 t d = iblk0 V c 1 t) ∧ (∀ d, (dat0 V c).before 2 t d = iblk0 V c 2 t)
    ∧ (∀ d, (dat0 V c).before 3 t d = iblk0 V c 3 t) ∧ (∀ d, (dat0 V c).before 4 t d = iblk0 V c 4 t)
    ∧ (dat0 V c).after 0 t = iblk0 V c 0 t ∧ (dat0 V c).after 1 t = iblk0 V c 1 t ∧ (dat0 V c).after 2 t = iblk0 V c 2 t
    ∧ (dat0 V c).after 3 t = iblk0 V c 3 t ∧ (dat0 V c).after 4 t = iblk0 V c 4 t
    ∧ (dat0 V c).Φ t.succ = (dat0 V c).Φ t.castSucc ∧ (dat0 V c).owesAt () t.succ = (dat0 V c).owesAt () t.castSucc := by
  refine ⟨?_, ?_, ?_, ?_, ?_, rfl, rfl, rfl, rfl, rfl, rfl, rfl⟩ <;>
    exact (dat0 V c).before_in_eq_fetched _ rfl (fun _ => rfl) (fun _ _ _ => rfl) (fun _ => rfl) t

/-- The windows hold the input blocks, so the run applies; a covering list of stores reads back the same through any view, over any prior contents. -/
theorem body_obligation0 : BodyObligation (dat0 (F := F) V c) (defs₀ (F := F)) Variants.none () Set.univ := fun t => by
  rw [bigSep_W0, bigSep_W0]
  simp only [at0 V c t, after0_5, after0_6, after0_7, after0_8, out0_5, out0_6, out0_7, out0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0 ..).2.2.2.2 Set.univ _)
  iframe
  isplitl [H5]; · iexists _; iexact H5
  isplitl [H6]; · iexists _; iexact H6
  isplitl [H7]; · iexists _; iexact H7
  isplitl [H8]; · iexists _; iexact H8
  iintro ⟨H0, H1, H2, H3, H4, ⟨%e5, H5⟩, ⟨%e6, H6⟩, ⟨%e7, H7⟩, ⟨%e8, H8⟩⟩
  iframe
  unfold owns
  isplitl [H5]; · iexists _; isplitr; swap; iexact H5; ipureintro; exact View.read_writes_of_cover _ _ _ _ _ fun _ => cover0_5 ..
  isplitl [H6]; · iexists _; isplitr; swap; iexact H6; ipureintro; exact View.read_writes_of_cover _ _ _ _ _ fun _ => cover0_6 ..
  isplitl [H7]; · iexists _; isplitr; swap; iexact H7; ipureintro; exact View.read_writes_of_cover _ _ _ _ _ fun _ => cover0_7 ..
  iexists _; isplitr; swap; iexact H8; ipureintro; exact View.read_writes_of_cover _ _ _ _ _ fun _ => cover0_8 ..

end Cert.KernelIdeal.Hand

end
-- ==== Proof.KI.R1Runs.lean ====
import proofs.«143630_j6073083756839_1_alg».proof.Proof.KI.R0

noncomputable section

namespace Cert.KernelIdeal.Hand

open Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

theorem idleAt1_6 : ∀ t : Fin cfg1.N, ¬cond1_1 (grid1.coords t) → cfg1.idle 6 (grid1.coords t) = true := by decide +kernel
theorem noFlush1_6 : ∀ t : Fin cfg1.N, ¬cond1_1 (grid1.coords t) → (cfg1.win 6).flush t = false := by decide +kernel
theorem liveAt1_6 : ∀ t : Fin cfg1.N, cond1_1 (grid1.coords t) → cfg1.idle 6 (grid1.coords t) = false := by decide +kernel

abbrev ms1_0 (t : Fin cfg1.N) : Memref sig .tc .vmem S1x256x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x2048 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x2048 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2048x1024 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x1024 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256x1024 .f32 := win1_6.stage (cfg1.slots t 6)
abbrev hs1_6 (t : Fin cfg1.N) : (ms1_6 t).IsWhole := hstage1_6 ((cfg1.slots t 6).cast nbuf1_6)
abbrev VO1_6 : View sig .tc .vmem S1x256x1024 .f32 := (Memref.whole cc1_stg6_0 : Memref sig .tc .vmem S1x256x1024 .f32).view
abbrev scM1_0 : Memref sig .tc .vmem S256x2048 .f32 := Memref.whole cc1_scratch0
abbrev VS1_0 : View sig .tc .vmem S256x2048 .f32 := scM1_0.view

abbrev others1 (c : Dev nD) : sProp 𝕄 :=
  Pipeline.scopedRestBut (Ix := Unit) (Name := ℕ) (U := UR sig nD τ) (Lvl := ℕ) (Val := Elt F) spec1 c [cc1_scratch0]

theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1_0 fullShare d) ∗ others1 c) := by
  rw [Pipeline.scopedRest_split_of_list spec1 c [cc1_scratch0] (by decide) (by decide)]
  simp only [scM1_0, owns_whole, bigSepL]; try rfl

end Cert.KernelIdeal.Hand

end
-- ==== Proof.KI.R1RunA.lean ====
import proofs.«143630_j6073083756839_1_alg».proof.Proof.KI.R1Runs

noncomputable section

namespace Cert.KernelIdeal.Hand

open Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

noncomputable def kernelRun1_A (c : Dev nD) (i : grid1.Coords) (arg3 : Memref sig .tc .vmem S1x256x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : cond1_0 i) (hc1 : ¬cond1_1 i)
    (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32) :
    Σ' (L6 : List (View.Piece (Elt F) S1x256x1024 .f32)), { LS0 : List (View.Piece (Elt F) S256x2048 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨[], ?_, fun xi6 E K => ?run⟩
  case run =>
    simp only [cc1_kernel_b_eq_skeleton]; unfold cc1_kernel_b_skel
    rw [owns_unread harg3, owns_unread harg4, owns_unread harg5, owns_unread harg6, owns_unread harg7, owns_unread harg8, owns_unread harg9]
    unfold owns
    iintro ⟨H0, H1, H2, H3, H4, H5, H6, ⟨%ds0, %fs0, -, HS0⟩, Hk⟩
    sl_exec (disch := first | exact hc0 | exact hc1)
    sl_step
    iapply Hk
    iframe H0 H1 H2 H3 H4 H5 H6
    iexists _; iexact HS0

end Cert.KernelIdeal.Hand

end
-- ==== Proof.KI.R1RunB.lean ====
import proofs.«143630_j6073083756839_1_alg».proof.Proof.KI.R1RunA

noncomputable section

namespace Cert.KernelIdeal.Hand

open Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

noncomputable def kernelRun1_B (c : Dev nD) (i : grid1.Coords) (arg3 : Memref sig .tc .vmem S1x256x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : ¬cond1_1 i)
    (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32) (xs0 : Vec F S256x2048 .f32) :
    Σ' (L6 : List (View.Piece (Elt F) S1x256x1024 .f32)), { LS0 : List (View.Piece (Elt F) S256x2048 .f32) //
      ∀ (xi6 : Vec F S1x256x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6 ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨[], ?_, fun xi6 E K => ?run⟩
  case run =>
    simp only [cc1_kernel_b_eq_skeleton]; unfold cc1_kernel_b_skel
    rw [owns_unread harg3, owns_unread harg4, owns_unread harg5, owns_unread harg6, owns_unread harg7, owns_unread harg8, owns_unread harg9, owns_unread harg10]
    iintro ⟨H0, H1, H2, H3, H4, H5, H6, HS0, Hk⟩
    sl_exec (disch := first | exact hc0 | exact hc1)
    sl_step
    iapply Hk
    iframe H0 H1 H2 H3 H4 H5 H6
    iexists _; iexact HS0

end Cert.KernelIdeal.Hand

end
-- ==== Proof.KI.R1RunC.lean ====
import proofs.«143630_j6073083756839_1_alg».proof.Proof.KI.R1RunB

noncomputable section

namespace Cert.KernelIdeal.Hand

open Cert.KernelIdeal.Gen
open Idealize.ShloMosaic Idealize.ShloMosaic.TcCoe
open Idealize.SL.RA Idealize.SL.BI
open Idealize.SL.BI.BIBase Idealize.SL.Sem
open Idealize.ShloMosaic.Pipeline (Dat BodyObligation)

variable {F : FTy → Type} [FloatOps F]

local notation "𝕄" => MT nD τ sig Unit (Elt F) ℕ (UR sig nD τ) ℕ

noncomputable def kernelRun1_C (c : Dev nD) (i : grid1.Coords) (arg3 : Memref sig .tc .vmem S1x256x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole) (hc0 : ¬cond1_0 i) (hc1 : cond1_1 i)
    (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32) (xs0 : Vec F S256x2048 .f32) :
    Σ' (L6 : List (View.Piece (Elt F) S1x256x1024 .f32)), { LS0 : List (View.Piece (Elt F) S256x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ owns (c : Thread nD τ) arg10 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ f, arg10.view.loc (c : Thread nD τ) ↦[arg10.view.set]{fullShare} arg10.view.writes (Elt F) f LS0)) -∗ K ⟨⟩))
          ⊢ wp frame (wpE (defs₀ (F := F)) Variants.none c none) E (cc1_kernel_b i arg3 harg3 arg4 harg4 arg5 harg5 arg6 harg6 arg7 harg7 arg8 harg8 arg9 harg9 arg10 harg10) K } := by
  refine ⟨?_, ?_, fun E K => ?run⟩
  case run =>
    simp only [cc1_kernel_b_eq_skeleton]; unfold cc1_kernel_b_skel
    rw [owns_unread harg3, owns_unread harg4, owns_unread harg5, owns_unread harg6, owns_unread harg7, owns_unread harg8, owns_unread harg10]
    unfold owns
    iintro ⟨H0, H1, H2, H3, H4, H5, ⟨%d6, %f6, -, H6⟩, HS0, Hk⟩
    sl_exec (disch := first | exact hc0 | exact hc1)
    sl_step
    iapply Hk
    iframe H0 H1 H2 H3 H4 H5
    isplitl [H6]; · iexists _; iexact H6
    iexists _; iexact HS0

end Cert.KernelIdeal.Hand

end
-- ==== Proof.KI.R1.lean ====
import proofs.«143630_j6073083756839_1_alg».proof.Proof.KI.R1RunC

noncomputable section

namespace Cert.KernelIdeal.Hand

open Cert.KernelIdeal.Gen
open Idealize.ShloMosaic Idealize.ShloMosaic.TcCoe
open Idealize.SL.RA Idealize.SL.BI
open Idealize.SL.BI.BIBase Idealize.SL.BI.Laws Idealize.SL.Sem
open Idealize.ShloMosaic.Pipeline (Dat BodyObligation)

variable {F : FTy → Type} [FloatOps F]

local notation "𝕄" => MT nD τ sig Unit (Elt F) ℕ (UR sig nD τ) ℕ

variable (V : (c : Dev nD) → (b : Ref sig .tc) → Buf (Elt F) ((c : Thread nD τ).loc b))

section Args

variable (c : Dev nD) (i : grid1.Coords) (arg3 : Memref sig .tc .vmem S1x256x128 .bf16) (harg3 : arg3.IsWhole) (arg4 : Memref sig .tc .vmem S1x512x128 .bf16) (harg4 : arg4.IsWhole) (arg5 : Memref sig .tc .vmem S1x512x2048 .bf16) (harg5 : arg5.IsWhole) (arg6 : Memref sig .tc .vmem S1x256x2048 .bf16) (harg6 : arg6.IsWhole) (arg7 : Memref sig .tc .vmem S2048x1024 .bf16) (harg7 : arg7.IsWhole) (arg8 : Memref sig .tc .vmem S1x1024 .f32) (harg8 : arg8.IsWhole) (arg9 : Memref sig .tc .vmem S1x256x1024 .f32) (harg9 : arg9.IsWhole) (arg10 : Memref sig .tc .vmem S256x2048 .f32) (harg10 : arg10.IsWhole)

section A

variable (hc0 : cond1_0 i) (hc1 : ¬cond1_1 i) (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32)

/-- Key tile 0 writes no output: this value is never read. -/
def out1_A_6 : Vec F S1x256x1024 .f32 :=
  VO1_6.read (Elt F) (VO1_6.writes (Elt F) VO1_6.junk (kernelRun1_A c i arg3 harg3 arg4 harg4 arg5 harg5 arg6 harg6 arg7 harg7 arg8 harg8 arg9 harg9 arg10 harg10 hc0 hc1 x0 x1 x2 x3 x4 x5).1)

theorem scover1_A_0 (y : S256x2048.Idx) : ∃ pc ∈ (kernelRun1_A c i arg3 harg3 arg4 harg4 arg5 harg5 arg6 harg6 arg7 harg7 arg8 harg8 arg9 harg9 arg10 harg10 hc0 hc1 x0 x1 x2 x3 x4 x5).2.1, y ∈ pc.1.set :=
  View.cover_of_tiledL _ S256x2048.size (by sl_kernel_rfl) y

/-- The accumulator after key tile 0. -/
def sout1_A_0 : Vec F S256x2048 .f32 :=
  VS1_0.read (Elt F) (VS1_0.writes (Elt F) VS1_0.junk (kernelRun1_A c i arg3 harg3 arg4 harg4 arg5 harg5 arg6 harg6 arg7 harg7 arg8 harg8 arg9 harg9 arg10 harg10 hc0 hc1 x0 x1 x2 x3 x4 x5).2.1)

end A

section B

variable (hc0 : ¬cond1_0 i) (hc1 : ¬cond1_1 i) (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32) (xs0 : Vec F S256x2048 .f32)

/-- Nor do key tiles 1 and 2. -/
def out1_B_6 : Vec F S1x256x1024 .f32 :=
  VO1_6.read (Elt F) (VO1_6.writes (Elt F) VO1_6.junk (kernelRun1_B c i arg3 harg3 arg4 harg4 arg5 harg5 arg6 harg6 arg7 harg7 arg8 harg8 arg9 harg9 arg10 harg10 hc0 hc1 x0 x1 x2 x3 x4 x5 xs0).1)

theorem scover1_B_0 (y : S256x2048.Idx) : ∃ pc ∈ (kernelRun1_B c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL _ S256x2048.size (by sl_kernel_rfl) y

/-- The accumulator after key tile 1 or 2, from `xs0` before it. -/
def sout1_B_0 : Vec F S256x2048 .f32 :=
  VS1_0.read (Elt F) (VS1_0.writes (Elt F) VS1_0.junk (kernelRun1_B c i arg3 harg3 arg4 harg4 arg5 harg5 arg6 harg6 arg7 harg7 arg8 harg8 arg9 harg9 arg10 harg10 hc0 hc1 x0 x1 x2 x3 x4 x5 xs0).2.1)

end B

section C

variable (hc0 : ¬cond1_0 i) (hc1 : cond1_1 i) (x0 : Vec F S1x256x128 .bf16) (x1 : Vec F S1x512x128 .bf16) (x2 : Vec F S1x512x2048 .bf16) (x3 : Vec F S1x256x2048 .bf16) (x4 : Vec F S2048x1024 .bf16) (x5 : Vec F S1x1024 .f32) (xs0 : Vec F S256x2048 .f32)

theorem cover1_C_6 (y : S1x256x1024.Idx) : ∃ pc ∈ (kernelRun1_C c i arg3 harg3 arg4 harg4 arg5 harg5 arg6 harg6 arg7 harg7 arg8 harg8 arg9 harg9 arg10 harg10 hc0 hc1 x0 x1 x2 x3 x4 x5 xs0).1, y ∈ pc.1.set :=
  View.cover_of_tiledL _ S1x256x1024.size (by sl_kernel_rfl) y

/-- The output block key tile 3 stores. -/
def out1_C_6 : Vec F S1x256x1024 .f32 :=
  VO1_6.read (Elt F) (VO1_6.writes (Elt F) VO1_6.junk (kernelRun1_C c i arg3 harg3 arg4 harg4 arg5 harg5 arg6 harg6 arg7 harg7 arg8 harg8 arg9 harg9 arg10 harg10 hc0 hc1 x0 x1 x2 x3 x4 x5 xs0).1)

theorem scover1_C_0 (y : S256x2048.Idx) : ∃ pc ∈ (kernelRun1_C c i arg3 harg3 arg4 harg4 arg5 harg5 arg6 harg6 arg7 harg7 arg8 harg8 arg9 harg9 arg10 harg10 hc0 hc1 x0 x1 x2 x3 x4 x5 xs0).2.1, y ∈ pc.1.set :=
  View.cover_of_tiledL _ S256x2048.size (by sl_kernel_rfl) y

/-- The accumulator after key tile 3, from `xs0` before it. -/
def sout1_C_0 : Vec F S256x2048 .f32 :=
  VS1_0.read (Elt F) (VS1_0.writes (Elt F) VS1_0.junk (kernelRun1_C c i arg3 harg3 arg4 harg4 arg5 harg5 arg6 harg6 arg7 harg7 arg8 harg8 arg9 harg9 arg10 harg10 hc0 hc1 x0 x1 x2 x3 x4 x5 xs0).2.1)

end C

end Args

/-- `f` at point `t`: at its coordinates, its memrefs with the accumulator, and its six input blocks. -/
abbrev at1 {P Q : grid1.Coords → Prop} {β : Type} (c : Dev nD) (t : Fin cfg1.N)
    (f : (i : grid1.Coords) → (a3 : Memref sig .tc .vmem S1x256x128 .bf16) → a3.IsWhole → (a4 : Memref sig .tc .vmem S1x512x128 .bf16) → a4.IsWhole → (a5 : Memref sig .tc .vmem S1x512x2048 .bf16) → a5.IsWhole → (a6 : Memref sig .tc .vmem S1x256x2048 .bf16) → a6.IsWhole → (a7 : Memref sig .tc .vmem S2048x1024 .bf16) → a7.IsWhole → (a8 : Memref sig .tc .vmem S1x1024 .f32) → a8.IsWhole → (a9 : Memref sig .tc .vmem S1x256x1024 .f32) → a9.IsWhole → (a10 : Memref sig .tc .vmem S256x2048 .f32) → a10.IsWhole → P i → Q i →
      Vec F S1x256x128 .bf16 → Vec F S1x512x128 .bf16 → Vec F S1x512x2048 .bf16 → Vec F S1x256x2048 .bf16 → Vec F S2048x1024 .bf16 → Vec F S1x1024 .f32 → β)
    (h0 : P (grid1.coords t)) (h1 : Q (grid1.coords t)) : β :=
  f (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) scM1_0 (Memref.isWhole_whole _) h0 h1 (iblk1 V c 0 t) (iblk1 V c 1 t) (iblk1 V c 2 t) (iblk1 V c 3 t) (iblk1 V c 4 t) (iblk1 V c 5 t)

theorem nc0 {t : Fin cfg1.N} (h : ¬t.val % 4 = 0) : ¬cond1_0 (grid1.coords t) := fun h' => h ((hcond1_0 t).mp h')
theorem nc1 {t : Fin cfg1.N} (h : ¬t.val % 4 = 3) : ¬cond1_1 (grid1.coords t) := fun h' => h ((hcond1_1 t).mp h')

/-- One point's step from the accumulator `xs` before it: the key tile selects the case, and key tile 0 ignores `xs`. -/
def step1 (c : Dev nD) (t : Fin cfg1.N) (xs : Vec F S256x2048 .f32) : Vec F S1x256x1024 .f32 × Vec F S256x2048 .f32 :=
  if h0 : t.val % 4 = 0 then
    (at1 V c t (out1_A_6 c) ((hcond1_0 t).mpr h0) (nc1 (by omega)), at1 V c t (sout1_A_0 c) ((hcond1_0 t).mpr h0) (nc1 (by omega)))
  else if h1 : t.val % 4 = 3 then
    (at1 V c t (out1_C_6 c) (nc0 h0) ((hcond1_1 t).mpr h1) xs, at1 V c t (sout1_C_0 c) (nc0 h0) ((hcond1_1 t).mpr h1) xs)
  else
    (at1 V c t (out1_B_6 c) (nc0 h0) (nc1 h1) xs, at1 V c t (sout1_B_0 c) (nc0 h0) (nc1 h1) xs)

/-- The pair (output block, accumulator) after position `n`, by recursion on `n`. -/
def outsAt1 (c : Dev nD) : (n : ℕ) → n < cfg1.N → Vec F S1x256x1024 .f32 × Vec F S256x2048 .f32
  | 0, hn => step1 V c ⟨0, hn⟩ (VS1_0.read (Elt F) VS1_0.junk)
  | n + 1, hn => step1 V c ⟨n + 1, hn⟩ (outsAt1 c n (Nat.lt_of_succ_lt hn)).2

theorem outsAt1_A (c : Dev nD) (t : Fin cfg1.N) (h0 : t.val % 4 = 0) (h1 : ¬t.val % 4 = 3) :
    outsAt1 V c t.val t.isLt = (at1 V c t (out1_A_6 c) ((hcond1_0 t).mpr h0) (nc1 h1), at1 V c t (sout1_A_0 c) ((hcond1_0 t).mpr h0) (nc1 h1)) := by
  obtain ⟨n, hn⟩ := t
  cases n <;> (show step1 V c _ _ = _; exact dif_pos h0)

theorem outsAt1_B (c : Dev nD) (t : Fin cfg1.N) (h0 : ¬t.val % 4 = 0) (h1 : ¬t.val % 4 = 3) :
    outsAt1 V c t.val t.isLt = (at1 V c t (out1_B_6 c) (nc0 h0) (nc1 h1) (outsAt1 V c (t.val - 1) (Nat.lt_of_le_of_lt (Nat.sub_le _ _) t.isLt)).2, at1 V c t (sout1_B_0 c) (nc0 h0) (nc1 h1) (outsAt1 V c (t.val - 1) (Nat.lt_of_le_of_lt (Nat.sub_le _ _) t.isLt)).2) := by
  obtain ⟨n, hn⟩ := t
  cases n with
  | zero => exact (h0 (Nat.zero_mod _)).elim
  | succ n => exact ((dif_neg h0).trans (dif_neg h1) : step1 V c _ _ = _)

theorem outsAt1_C (c : Dev nD) (t : Fin cfg1.N) (h0 : ¬t.val % 4 = 0) (h1 : t.val % 4 = 3) :
    outsAt1 V c t.val t.isLt = (at1 V c t (out1_C_6 c) (nc0 h0) ((hcond1_1 t).mpr h1) (outsAt1 V c (t.val - 1) (Nat.lt_of_le_of_lt (Nat.sub_le _ _) t.isLt)).2, at1 V c t (sout1_C_0 c) (nc0 h0) ((hcond1_1 t).mpr h1) (outsAt1 V c (t.val - 1) (Nat.lt_of_le_of_lt (Nat.sub_le _ _) t.isLt)).2) := by
  obtain ⟨n, hn⟩ := t
  cases n with
  | zero => exact (h0 (Nat.zero_mod _)).elim
  | succ n => exact ((dif_neg h0).trans (dif_pos h1) : step1 V c _ _ = _)

theorem PhiA1_eq (c : Dev nD) :
    (Pipeline.ΦA spec1 c : sProp 𝕄)
      = iprop(iprop((∃ d, owns (c : Thread nD τ) scM1_0 fullShare d) ∗ others1 c) ∗ (∃ r, prngReg c r)) := by
  unfold Pipeline.ΦA; rw [scopedRest1_split]

/-- The invariant before position `n`: only what the accumulator holds changes from point to point. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 c) ∗ (∃ r, prngReg c r))

theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 c) ∗ (∃ r, prngReg c r)) := by
  cases n with
  | zero => exact absurd rfl hz
  | succ n => rfl

/-- Forgetting what the accumulator holds, every position's invariant is the first one. -/
theorem PhiS1_any (c : Dev nD) (n : ℕ) (h : n ≤ cfg1.N) :
    PhiS1 V c n h ⊢ iprop(iprop((∃ d, owns (c : Thread nD τ) scM1_0 fullShare d) ∗ others1 c) ∗ (∃ r, prngReg c r)) := by
  by_cases hz : n = 0
  · subst hz; exact Entails.of_eq (PhiA1_eq c)
  · rw [PhiS1_pos V c n h hz]
    iintro ⟨⟨HS0, Hoth⟩, Hg⟩
    iframe Hoth Hg
    iexists _; iexact HS0

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1 V c t.val t.isLt).1
  Φ t := PhiS1 V c t.val (Nat.le_of_lt_succ t.isLt)
  q _ := fullShare
  owed _ := 0

theorem after1_6 (c : Dev nD) (t : Fin cfg1.N) : (dat1 V c).after 6 t = (outsAt1 V c t.val t.isLt).1 := rfl

/-- The facts about `dat1` at point `t` the obligation rewrites by: an input window holds its block of the array, and the rest unfolds. -/
theorem pt1 (c : Dev nD) (t : Fin cfg1.N) : (∀ d, (dat1 V c).before 0 t d = iblk1 V c 0 t) ∧ (∀ d, (dat1 V c).before 1 t d = iblk1 V c 1 t) ∧ (∀ d, (dat1 V c).before 2 t d = iblk1 V c 2 t)
    ∧ (∀ d, (dat1 V c).before 3 t d = iblk1 V c 3 t) ∧ (∀ d, (dat1 V c).before 4 t d = iblk1 V c 4 t) ∧ (∀ d, (dat1 V c).before 5 t d = iblk1 V c 5 t)
    ∧ (dat1 V c).after 0 t = iblk1 V c 0 t ∧ (dat1 V c).after 1 t = iblk1 V c 1 t ∧ (dat1 V c).after 2 t = iblk1 V c 2 t
    ∧ (dat1 V c).after 3 t = iblk1 V c 3 t ∧ (dat1 V c).after 4 t = iblk1 V c 4 t ∧ (dat1 V c).after 5 t = iblk1 V c 5 t
    ∧ (dat1 V c).Φ t.succ = iprop(iprop(owns (c : Thread nD τ) scM1_0 fullShare (outsAt1 V c t.val t.isLt).2 ∗ others1 c) ∗ (∃ r, prngReg c r))
    ∧ (dat1 V c).Φ t.castSucc = PhiS1 V c t.val (Nat.le_of_lt t.isLt) ∧ (dat1 V c).owesAt () t.succ = (dat1 V c).owesAt () t.castSucc := by
  refine ⟨?_, ?_, ?_, ?_, ?_, ?_, rfl, rfl, rfl, rfl, rfl, rfl, rfl, rfl, rfl⟩ <;>
    exact (dat1 V c).before_in_eq_fetched _ rfl (fun _ => rfl) (fun _ _ _ => rfl) (fun _ => rfl) t

/-- Each case's run framed by the invariant: the accumulator goes in as `outsAt1` has it before the point and comes back as it has it after. -/
theorem body_obligation1 (c : Dev nD) : BodyObligation (dat1 (F := F) V c) (defs₀ (F := F)) Variants.none () Set.univ := fun t => by
  rw [bigSep_W1, bigSep_W1]
  simp only [pt1 V c t, after1_6]
  show _ ⊢ wp frame _ Set.univ (bodyAt1 t) _
  by_cases h0 : t.val % 4 = 0
  · have h1 : ¬t.val % 4 = 3 := by omega
    rw [show idle1 6 (grid1.coords t) = true from idleAt1_6 t (nc1 h1), noFlush1_6 t (nc1 h1), outsAt1_A V c t h0 h1]
    dsimp only [at1]; unfold sout1_A_0
    refine (sep_mono (PhiS1_any V c _ _) .rfl).trans ?_
    iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRun1_A (hc0 := (hcond1_0 t).mpr h0) (hc1 := nc1 h1) ..).2.2 _ Set.univ _)
    iframe H0 H1 H2 H3 H4 H5 H6 HS0
    iintro ⟨H0, H1, H2, H3, H4, H5, H6, ⟨%f, HS0⟩⟩
    iframe Hoth Hg Ho H0 H1 H2 H3 H4 H5
    isplitl [HS0]
    · ihave H' := (Ring.owns_of_writes_tiledL VS1_0 S256x2048.size) $$ HS0; iapply H'; ipureintro; sl_kernel_rfl
    iexists _; iexact H6
  · rw [PhiS1_pos V c _ _ (by omega)]
    by_cases h1 : t.val % 4 = 3
    · rw [show idle1 6 (grid1.coords t) = false from liveAt1_6 t ((hcond1_1 t).mpr h1), outsAt1_C V c t h0 h1]
      dsimp only [at1]; unfold out1_C_6 sout1_C_0
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_C (hc0 := nc0 h0) (hc1 := (hcond1_1 t).mpr h1) ..).2.2 Set.univ _)
      iframe H0 H1 H2 H3 H4 H5 HS0
      isplitl [H6]; · iexists _; iexact H6
      iintro ⟨H0, H1, H2, H3, H4, H5, ⟨%g, H6⟩, ⟨%f, HS0⟩⟩
      iframe Hoth Hg Ho H0 H1 H2 H3 H4 H5
      isplitl [HS0]
      · ihave H' := (Ring.owns_of_writes_tiledL VS1_0 S256x2048.size) $$ HS0; iapply H'; ipureintro; sl_kernel_rfl
      ihave H' := (Ring.owns_of_writes_tiledL VO1_6 S1x256x1024.size) $$ H6; iapply H'; ipureintro; sl_kernel_rfl
    · rw [show idle1 6 (grid1.coords t) = true from idleAt1_6 t (nc1 h1), noFlush1_6 t (nc1 h1), outsAt1_B V c t h0 h1]
      dsimp only [at1]; unfold sout1_B_0
      iintro ⟨⟨⟨HS0, Hoth⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun1_B (hc0 := nc0 h0) (hc1 := nc1 h1) ..).2.2 _ Set.univ _)
      iframe H0 H1 H2 H3 H4 H5 H6 HS0
      iintro ⟨H0, H1, H2, H3, H4, H5, H6, ⟨%f, HS0⟩⟩
      iframe Hoth Hg Ho H0 H1 H2 H3 H4 H5
      isplitl [HS0]
      · ihave H' := (Ring.owns_of_writes_tiledL VS1_0 S256x2048.size) $$ HS0; iapply H'; ipureintro; sl_kernel_rfl
      iexists _; iexact H6

theorem hin1 (c : Dev nD) : Pipeline.ΦA spec1 c ⊢ (dat1 V c).Φ 0 := Entails.of_eq rfl

theorem hout1 (c : Dev nD) : (dat1 V c).Φ (Fin.last cfg1.N) ⊢ Pipeline.ΦA spec1 c :=
  (PhiS1_any V c cfg1.N (Nat.le_refl _)).trans (Entails.of_eq (PhiA1_eq c).symm)

end Cert.KernelIdeal.Hand

end
-- ==== Proof.KI.Run.lean ====
import proofs.«143630_j6073083756839_1_alg».proof.Proof.KI.R1

noncomputable section

namespace Cert.KernelIdeal.Hand

open Cert.KernelIdeal.Gen
open Idealize.ShloMosaic Idealize.ShloMosaic.TcCoe
open Idealize.SL Idealize.SL.RA Idealize.SL.BI
open Idealize.SL.BI.BIBase
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => m ((c : Dev nD), b)
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- `W1` with region 0's arrays replaced by their final contents `arrAt · N`. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N :=
  Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) :=
  Pipeline.withArrays_of_ne spec0 c _ _ b hb
abbrev W3 : Dev nD → Valuation τ sig (Elt F) := fun c => StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_main_v10 (c : Dev nD) : W4 m c (Proc.devRef .tc main_v10) = (dat1 (V3 m) c).arrAt 6 cfg1.N :=
  Pipeline.withArrays_arr spec1 launch1.win.arr_inj c _ _ 6

abbrev wr : List (Ref sig .tc) := [main_v0, main_v1, main_v2, main_v4, main_v5, main_v6, main_v7, main_v8, main_v9]
abbrev args : List (Ref sig .tc) := [main_arg0, main_arg1, main_arg2, main_arg3, main_arg4, main_arg5, main_arg6]

/-- Both host stretches write only references of `wr`, so any other buffer passes through them unchanged. -/
theorem host_keeps (X : Valuation τ sig (Elt F)) {b : Ref sig .tc} (hb : b ∉ wr) :
    StableHlo.after hostOps0 X (Proc.devRef .tc b) = X (Proc.devRef .tc b)
      ∧ StableHlo.after hostOps1 X (Proc.devRef .tc b) = X (Proc.devRef .tc b) := by
  constructor <;> refine StableHlo.after_of_writes_sub (W := wr) _ X ?_ hb <;>
    simp only [List.Forall, StableHlo.unary_writes, StableHlo.reshape_writes, Finset.singleton_subset_iff, List.mem_toFinset,
      List.map_cons, List.mem_cons, true_or, or_true, and_self]

/-- What lets an argument through: no host stretch writes it, region 1 passes it by, region 0 passes it by or only reads it. -/
theorem args_ok : ∀ b ∈ args, ¬ (Proc.devRef .tc b : DevRef τ sig).isScoped ∧ b ∉ wr ∧ (∀ w, Pipeline.arrRef spec1 w ≠ b)
    ∧ ∀ w, Pipeline.arrRef spec0 w = b → (cfg0.win w).isOut = false := by decide

/-- Hence every argument ends at its launch contents: an input's array keeps its contents (`Dat.arrAt_in`). -/
theorem W4_arg (c : Dev nD) {b : Ref sig .tc} (hb : b ∈ args) : W4 m c (Proc.devRef .tc b) = m ((c : Thread nD τ).loc b) := by
  obtain ⟨-, hw, h1, h0⟩ := args_ok b hb
  refine (Pipeline.withArrays_of_ne spec1 c _ _ b h1).trans <| (host_keeps (W2 m c) hw).2.trans <|
    Eq.trans ?_ (host_keeps (W0 m c) hw).1
  by_cases h : ∃ w, Pipeline.arrRef spec0 w = b
  · obtain ⟨w, rfl⟩ := h
    exact (W2_arr m c w).trans (((dat0 (V1 m) c).arrAt_in w (h0 w rfl) _).trans (A_eq0 (V1 m) c w))
  · exact W2_of_ne m c b fun w e => h ⟨w, e⟩

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- A thread state between segments: every buffer held at `W`, and `R`. -/
abbrev St (W : Dev nD → Valuation τ sig (Elt F)) (c : Dev nD) : sProp 𝕄 :=
  iprop(StableHlo.held (c : Thread nD τ) (Pipeline.ucRefs τ sig) (W c) ∗ R c)
abbrev hseg (ops : List (HloOp τ sig (Elt F))) (hsub : ops.Forall fun op => op.bufs ⊆ StableHlo.tcRefs τ sig)
    (W : Dev nD → Valuation τ sig (Elt F))
    (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

section Region

variable (p : Fin 2) (lf : Pipeline.LaunchFacts (nD := nD) (τ := τ) cfgs p) (Wi : Dev nD → Valuation τ sig (Elt F))

abbrev Vof (c : Dev nD) (b : Ref sig .tc) : Buf (Elt F) ((c : Thread nD τ).loc b) := Wi c b
abbrev Aout (c : Dev nD) (w : Fin (cfgs p).W) := (pdats m p c).arrAt w (cfgs p).N
/-- `Wi` with region `p`'s arrays replaced by their final contents. -/
abbrev Wout (c : Dev nD) : Valuation τ sig (Elt F) := Pipeline.withArrays (cfgs p).spec c (Wi c) (Aout m p c)

set_option backward.isDefEq.respectTransparency.types false in
/-- Region `p` as a segment: its arrays are split out of the buffers held at `Wi`, and put back among them at `Wout`. -/
def reg (hq : ∀ c w, (pdats m p c).q w = fullShare) (howed : ∀ c t, (pdats m p c).owed t = 0)
    (hrec : ∀ c t, (pdats m p c).recorded t = Set.univ)
    (hA : ∀ c w, (pdats m p c).A w = Vof Wi c (Pipeline.arrRef (cfgs p).spec w))
    (hbody : ∀ c, BodyObligation (pdats m p c) defs₀ 𝒱₀ () Set.univ)
    (hin : ∀ c, Pipeline.ΦA (cfgs p).spec c ⊢ (pdats m p c).Φ 0)
    (hout : ∀ c, (pdats m p c).Φ (Fin.last _) ⊢ Pipeline.ΦA (cfgs p).spec c) :
    Pipeline.RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre := St Wi
  post := St (Wout m p Wi)
  X c := iprop(∃ r, prngReg c r)
  Y c := iprop(∃ r, prngReg c r)
  Z c := Pipeline.unscopedRest (cfgs p).spec c (Vof Wi c)
  hentry c := by
    unfold Pipeline.Dat.owesAt Pipeline.owesWithin Pipeline.Dat.bound
    rw [Pipeline.ownSems0_none, howed c, hrec c]
    have hsplit := Pipeline.arrays_of_unscopedBufs (p := p) (pcfgs (F := F)) adm (pdats m) lf.win lf.arr_whole c
      ((pdats m p c).share_full (hq c)) (Vof Wi c) (hA c)
    rw [Pipeline.unscopedBufs_held] at hsplit
    iintro ⟨⟨Hub, Hp, HO⟩, -, -⟩
    icases hsplit $$ Hub with ⟨Ha, Hrest⟩
    imodintro
    isplitl [Ha]; · iexact Ha
    isplitr; · unfold Pipeline.prefHeld; rw [Finset.univ_eq_empty, BI.bigSep_empty]; iempintro
    isplitl [HO]
    · icases HO with ⟨%W, HO⟩; iexists W; isplitr; · ipureintro; exact fun _ _ => Or.inl trivial
      iexact HO
    isplitl [Hp] <;> iassumption
  hin c := by
    refine .trans ?_ (hin c); unfold Pipeline.ΦA
    iintro ⟨Hp, -, Hr⟩
    isplitl [Hr] <;> iassumption
  hout c := by
    rw [Pipeline.ownSems0_none]; exact (hout c).trans (BI.sep_comm.trans (BI.sep_mono (BI.Entails.refl _) BI.emp_sep_intro))
  hexit c := by
    unfold Pipeline.Dat.owesAt Pipeline.owesWithin
    rw [howed c]
    have hjoin := Pipeline.unscopedBufs_of_arrays (p := p) (pcfgs (F := F)) adm
      lf.win lf.arr_whole c (pdats m) ((pdats m p c).share_full (hq c))
      (Vof Wi c) (Vof (Wout m p Wi) c) (Aout m p c)
      (fun w => (Pipeline.withArrays_arr _ lf.win.arr_inj c (Wi c) (Aout m p c) w).symm)
      fun b hb => Pipeline.withArrays_of_ne _ c (Wi c) (Aout m p c) b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    icases HO with ⟨%W, -, HO⟩; iexists W; iexact HO

end Region

abbrev reg0 := reg m 0 launch0 (W1 m) (fun _ _ => rfl) (fun _ _ => rfl) (fun _ _ => rfl) (fun _ _ => rfl) (body_obligation0 (V1 m)) (fun _ => .rfl) (fun _ => .rfl)
abbrev reg1 := reg m 1 launch1 (W3 m) (fun _ _ => rfl) (fun _ _ => rfl) (fun _ _ => rfl) (fun _ _ => rfl) (body_obligation1 (V3 m)) (hin1 (V3 m)) (hout1 (V3 m))

abbrev u₀ := initOf (Pipeline.cells cfgs cellOf_inj) (Pipeline.launchToks cfgs cellOf_inj)
abbrev segs : List (Pipeline.Seg (pcfgs (F := F)) adm (pdats m) () defs₀ 𝒱₀ L lv) :=
  [ .host (hseg hostOps0 hostOps0_sub (W0 m)),
    .region (reg0 m),
    .host (hseg hostOps1 hostOps1_sub (W2 m)),
    .region (reg1 m) ]
theorem main_run (c : Dev nD) : main (F := F) c = Pipeline.Seg.run (segs m) := (main_chain c).trans (by chain_rfl)

set_option backward.isDefEq.respectTransparency.types false in
/-- The four segments chain from `St W0` to `Tₙ`, whose held buffers are then read off the final memory. -/
theorem run_main : θ_run defs (onTc (τ := τ) (main (F := F))) ⟨m, fun _ => 0, ρ⟩ (fun r => ∀ c : Dev nD,
      r.2.mem ((c.tc : Thread nD τ).loc main_v10) = W4 m c (Proc.devRef .tc main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => BI.emp)
    (u₀ := u₀)
    (hu₀ := by
      rw [BI.bigSep_emp_const]
      iintro Hu; imodintro
      isplitl [Hu]; · iapply (show (ownU u₀ : sProp 𝕄) ⊢ BI.own (emb₁ u₀) from .rfl); iexact Hu
      iempintro)
    (T₀ := St (W0 m)) (Tₙ := Tₙ m)
    (hch := ⟨fun _ => .rfl, fun _ => .rfl, fun _ => .rfl, fun _ => .rfl, fun _ => sep_assoc'⟩)
    (hinit := by
      refine Pipeline.initEach L lv fun c => ?_
      erw [Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all _ _ (W4 m c) s')
      isplitl [Hh] <;> iassumption)
    (hQ := fun s h c =>
      have k b (hb : b ∈ args) := (h c _ (mem_uc b (args_ok b hb).1)).trans (W4_arg m c hb)
      ⟨h c _ (mem_uc main_v10 (by decide)), k main_arg0 (by decide), k main_arg1 (by decide), k main_arg2 (by decide),
       k main_arg3 (by decide), k main_arg4 (by decide), k main_arg5 (by decide), k main_arg6 (by decide)⟩)

end Cert.KernelIdeal.Hand

end
-- ==== Proof.Spec.lean ====
import Idealize.ShloMosaic.PureOps.Ideal
import Idealize.ShloMosaic.Lib.ValueIdx

noncomputable section

namespace Cert.Spec

open Idealize.ShloMosaic Idealize.ShloMosaic.ValueIdx
open scoped BigOperators

abbrev T1 (a : Nat) : Type := (⟨1, ![a]⟩ : Shape).Idx → EReal
abbrev T2 (a b : Nat) : Type := (⟨2, ![a, b]⟩ : Shape).Idx → EReal
abbrev T3 (a b c : Nat) : Type := (⟨3, ![a, b, c]⟩ : Shape).Idx → EReal

-- silu z = z · logistic z.
def silu (z : EReal) : EReal := z * Ideal.logistic z

-- The activated projection of the 8192 flattened rows: act(r, f) = silu(Σ_h x(r, h) · w(h, f) + b(0, f)).
def act2 (x : T2 8192 1024) (w : T2 1024 4224) (b : T2 1 4224) (r : Fin 8192) (f : Fin 4224) : EReal :=
  silu ((∑ h : Fin 1024, x (ix2 r h) * w (ix2 h f)) + b (ix2 (0 : Fin 1) f))

-- The three column bands of act: 4096.. (the base of q and k), 2048.. (v) and 0.. (u).
abbrev colBase (s : Fin 128) : Fin 4224 := ⟨4096 + s.val, by omega⟩
abbrev colV (e : Fin 2048) : Fin 4224 := ⟨2048 + e.val, by omega⟩
abbrev colU (e : Fin 2048) : Fin 4224 := ⟨e.val, by omega⟩

-- q (j = 0) and k (j = 1): the base band under the j-th affine map, base · γ(j, ·) + β(j, ·).
def qk2 (x : T2 8192 1024) (w : T2 1024 4224) (b : T2 1 4224) (γ β : T2 2 128) (j : Fin 2) : T2 8192 128 :=
  fun i => act2 x w b (i 0) (colBase (i 1)) * γ (ix2 j (i 1)) + β (ix2 j (i 1))
def v2 (x : T2 8192 1024) (w : T2 1024 4224) (b : T2 1 4224) : T2 8192 2048 :=
  fun i => act2 x w b (i 0) (colV (i 1))
def u2 (x : T2 8192 1024) (w : T2 1024 4224) (b : T2 1 4224) : T2 8192 2048 :=
  fun i => act2 x w b (i 0) (colU (i 1))

-- The squared rectified score of query n against key m, the score scaled by κ: max(κ(Σ_s q · k), 0)².
def sq (κ : EReal → EReal) (q k : T3 4 2048 128) (b : Fin 4) (n m : Fin 2048) : EReal :=
  max (κ (∑ s : Fin 128, q (ix3 b n s) * k (ix3 b m s))) 0 * max (κ (∑ s : Fin 128, q (ix3 b n s) * k (ix3 b m s))) 0

-- attn(b, n, e) = Σ_m sq(b, n, m) · v(b, m, e).
def attn (κ : EReal → EReal) (q k : T3 4 2048 128) (v : T3 4 2048 2048) (b : Fin 4) (n : Fin 2048) (e : Fin 2048) : EReal :=
  ∑ m : Fin 2048, sq κ q k b n m * v (ix3 b m e)

-- out(b, n, h) = Σ_e (u(b, n, e) · attn(b, n, e)) · W_out(e, h) + b_out(0, h).
def out3 (κ : EReal → EReal) (q k : T3 4 2048 128) (v u : T3 4 2048 2048) (wo : T2 2048 1024) (bo : T2 1 1024) : T3 4 2048 1024 :=
  fun i => (∑ e : Fin 2048, (u (ix3 (i 0) (i 1) e) * attn κ q k v (i 0) (i 1) e) * wo (ix2 e (i 2))) + bo (ix2 (0 : Fin 1) (i 2))

-- The two scales: times the word 2⁻¹¹, and divided by the word 2048.
def scaleK (z : EReal) : EReal := z * Ideal.ofBits .f32 0x3A000000#32
def scaleR (z : EReal) : EReal := Ideal.div z (Ideal.ofBits .f32 0x45000000#32)

-- A [4, 2048, c] array as 8192 rows (row b · 2048 + n is (b, n)), the inverse, and a vector as one row.
def rows {c : Nat} (x : T3 4 2048 c) : T2 8192 c :=
  fun i => x (ix3 (⟨(i 0).val / 2048, by have h : (i 0).val < 8192 := (i 0).isLt; omega⟩ : Fin 4) (⟨(i 0).val % 2048, Nat.mod_lt _ (by norm_num)⟩ : Fin 2048) (i 1))
def fold {c : Nat} (y : T2 8192 c) : T3 4 2048 c :=
  fun i => y (ix2 (⟨(i 0).val * 2048 + (i 1).val, by have h0 : (i 0).val < 4 := (i 0).isLt; have h1 : (i 1).val < 2048 := (i 1).isLt; omega⟩ : Fin 8192) (i 2))
def row {n : Nat} (x : T1 n) : T2 1 n := fun i => x (ix1 (i 1))

-- The result as one function of the seven arguments at scale κ: the attention stage over the folded projection stage.
def G (κ : EReal → EReal) (x : T3 4 2048 1024) (w : T2 1024 4224) (b : T1 4224) (γ β : T2 2 128) (wo : T2 2048 1024) (bo : T1 1024) :
    T3 4 2048 1024 :=
  out3 κ (fold (qk2 (rows x) w (row b) γ β 0)) (fold (qk2 (rows x) w (row b) γ β 1)) (fold (v2 (rows x) w (row b)))
    (fold (u2 (rows x) w (row b))) wo (row bo)

end Cert.Spec

end
-- ==== Proof.KI.ValHost.lean ====
import proofs.«143630_j6073083756839_1_alg».proof.Proof.KI.Run
import proofs.«143630_j6073083756839_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

open Idealize.ShloMosaic.StableHlo

-- A vector recast as one row keeps its entries.
theorem row_eq {n : Nat} (x : Spec.T1 n) (h : (⟨1, ![n]⟩ : Shape).ShapeCasts ⟨2, ![1, n]⟩) :
    shapeCast (⟨2, ![1, n]⟩ : Shape) x h = Spec.row x := by
  funext i
  rw [eq_ix2 i]
  exact shapeCast_a_1a_apply x h _ _

-- Merging the two leading axes keeps the row-major order: row b · 2048 + n is (b, n).
theorem rows_eq {k : Nat} (x : Spec.T3 4 2048 k) (h : (⟨3, ![4, 2048, k]⟩ : Shape).ShapeCasts ⟨2, ![8192, k]⟩) :
    shapeCast (⟨2, ![8192, k]⟩ : Shape) x h = Spec.rows x := by
  funext i
  exact shapeCast_apply x h i _ (by
    rw [Shape.rowMajor_val_three, Shape.rowMajor_val_two]
    exact congrArg (· * k + (i 1).val) (Nat.div_add_mod' (i 0).val 2048))

-- Splitting them again is the inverse.
theorem fold_eq {k : Nat} (y : Spec.T2 8192 k) (h : (⟨2, ![8192, k]⟩ : Shape).ShapeCasts ⟨3, ![4, 2048, k]⟩) :
    shapeCast (⟨3, ![4, 2048, k]⟩ : Shape) y h = Spec.fold y := by
  funext i
  exact shapeCast_apply y h i _ (by rw [Shape.rowMajor_val_three, Shape.rowMajor_val_two]; rfl)

variable (m : (ℓ : Loc nD τ sig) → Buf (Elt Ideal) ℓ) (c : Dev nD)

theorem V1_main_v0 : (V1 m c main_v0 : Spec.T2 8192 1024) = Spec.rows (m ((c : Thread nD τ).loc main_arg0)) :=
  (show _ = shapeCast (⟨2, ![8192, 1024]⟩ : Shape) (m ((c : Thread nD τ).loc main_arg0) : Spec.T3 4 2048 1024) shapeCasts_S4x2048x1024_S8192x1024 by
    dsimp only [V1, W1, W0, hostOps0]; after_results; rfl).trans (rows_eq _ _)

theorem V1_main_v1 : (V1 m c main_v1 : Spec.T2 1024 4224) = m ((c : Thread nD τ).loc main_arg1) := by
  dsimp only [V1, W1, W0, hostOps0]; after_results; rfl

theorem V1_main_v2 : (V1 m c main_v2 : Spec.T2 1 4224) = Spec.row (m ((c : Thread nD τ).loc main_arg2)) :=
  (show _ = shapeCast (⟨2, ![1, 4224]⟩ : Shape) (m ((c : Thread nD τ).loc main_arg2) : Spec.T1 4224) shapeCasts_S4224_S1x4224 by
    dsimp only [V1, W1, W0, hostOps0]; after_results; rfl).trans (row_eq _ _)

theorem V1_main_arg3 : V1 m c main_arg3 = m ((c : Thread nD τ).loc main_arg3) := by
  dsimp only [V1, W1, W0, hostOps0]; after_results
theorem V1_main_arg4 : V1 m c main_arg4 = m ((c : Thread nD τ).loc main_arg4) := by
  dsimp only [V1, W1, W0, hostOps0]; after_results

-- Neither the first host stretch nor region 0 writes the last two arguments.
theorem W2_keeps (a : Ref sig .tc) (ha : a = main_arg5 ∨ a = main_arg6) :
    W2 m c (Proc.devRef .tc a) = m ((c : Thread nD τ).loc a) := by
  rcases ha with rfl | rfl <;>
  exact (W2_of_ne m c _ (by decide)).trans (StableHlo.after_of_forall_not_mem (b := Proc.devRef .tc _) _ _
    (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

theorem V3_main_v4 : (V3 m c main_v4 : Spec.T3 4 2048 128) = Spec.fold ((dat0 (V1 m) c).arrAt 5 cfg0.N) :=
  (show _ = shapeCast (⟨3, ![4, 2048, 128]⟩ : Shape) (W2 m c (Proc.devRef .tc main_v3_0) : Spec.T2 8192 128) shapeCasts_S8192x128_S4x2048x128 by
    dsimp only [V3, W3, hostOps1]; after_results; rfl).trans ((fold_eq _ _).trans (congrArg Spec.fold (W2_arr m c 5)))

theorem V3_main_v5 : (V3 m c main_v5 : Spec.T3 4 2048 128) = Spec.fold ((dat0 (V1 m) c).arrAt 6 cfg0.N) :=
  (show _ = shapeCast (⟨3, ![4, 2048, 128]⟩ : Shape) (W2 m c (Proc.devRef .tc main_v3_1) : Spec.T2 8192 128) shapeCasts_S8192x128_S4x2048x128 by
    dsimp only [V3, W3, hostOps1]; after_results; rfl).trans ((fold_eq _ _).trans (congrArg Spec.fold (W2_arr m c 6)))

theorem V3_main_v6 : (V3 m c main_v6 : Spec.T3 4 2048 2048) = Spec.fold ((dat0 (V1 m) c).arrAt 7 cfg0.N) :=
  (show _ = shapeCast (⟨3, ![4, 2048, 2048]⟩ : Shape) (W2 m c (Proc.devRef .tc main_v3_2) : Spec.T2 8192 2048) shapeCasts_S8192x2048_S4x2048x2048 by
    dsimp only [V3, W3, hostOps1]; after_results; rfl).trans ((fold_eq _ _).trans (congrArg Spec.fold (W2_arr m c 7)))

theorem V3_main_v7 : (V3 m c main_v7 : Spec.T3 4 2048 2048) = Spec.fold ((dat0 (V1 m) c).arrAt 8 cfg0.N) :=
  (show _ = shapeCast (⟨3, ![4, 2048, 2048]⟩ : Shape) (W2 m c (Proc.devRef .tc main_v3_3) : Spec.T2 8192 2048) shapeCasts_S8192x2048_S4x2048x2048 by
    dsimp only [V3, W3, hostOps1]; after_results; rfl).trans ((fold_eq _ _).trans (congrArg Spec.fold (W2_arr m c 8)))

theorem V3_main_v8 : (V3 m c main_v8 : Spec.T2 2048 1024) = m ((c : Thread nD τ).loc main_arg5) :=
  (show _ = (W2 m c (Proc.devRef .tc main_arg5) : Spec.T2 2048 1024) by
    dsimp only [V3, W3, hostOps1]; after_results; rfl).trans (W2_keeps m c _ (.inl rfl))

theorem V3_main_v9 : (V3 m c main_v9 : Spec.T2 1 1024) = Spec.row (m ((c : Thread nD τ).loc main_arg6)) :=
  (show _ = shapeCast (⟨2, ![1, 1024]⟩ : Shape) (W2 m c (Proc.devRef .tc main_arg6) : Spec.T1 1024) shapeCasts_S1024_S1x1024 by
    dsimp only [V3, W3, hostOps1]; after_results; rfl).trans ((row_eq _ _).trans (congrArg Spec.row (W2_keeps m c _ (.inr rfl))))

end Cert.KernelIdeal.Hand

end
-- ==== Proof.LibPlainDotAny.lean ====
import Idealize.ShloMosaic.Lib.Pipeline.Value
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

-- An M×K by K×N product contracts the left operand's second axis, so at output (r, c) it reads the left operand at (r, k).
theorem lhsIdx_eq (j : (⟨2, ![M, N]⟩ : Shape).Idx) (k : Fin K) :
    (DotDims.plain M K N).lhsIdx j ((contrEquiv1 (DotDims.plain M K N) K rfl rfl).symm k) = ix2 (j 0) k :=
  Shape.idx_ext₂ rfl (((DotDims.plain M K N).lhsIdx_val_of_single (cl := 1) rfl j _).trans
    (contrEquiv1_symm_val (DotDims.plain M K N) K rfl rfl k))

-- It contracts the right operand's first axis, so it reads the right operand at (k, c).
theorem rhsIdx_eq (j : (⟨2, ![M, N]⟩ : Shape).Idx) (k : Fin K) :
    (DotDims.plain M K N).rhsIdx j ((contrEquiv1 (DotDims.plain M K N) K rfl rfl).symm k) = ix2 k (j 1) :=
  Shape.idx_ext₂ (((DotDims.plain M K N).rhsIdx_val_of_single (cr := 0) rfl j _).trans
    (contrEquiv1_symm_val (DotDims.plain M K N) K rfl rfl k)) rfl

-- Over the extended reals a product into a zero accumulator is, at (r, c), the sum Σ_k A (r, k) · B (k, c).
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  exact Finset.sum_congr rfl fun k _ => by rw [lhsIdx_eq, rhsIdx_eq]; rfl

end Idealize.ShloMosaic.PlainDot

end
-- ==== Proof.KI.Val0.lean ====
import proofs.«143630_j6073083756839_1_alg».proof.Proof.KI.R0
import proofs.«143630_j6073083756839_1_alg».proof.Proof.Spec
import proofs.«143630_j6073083756839_1_alg».proof.Proof.LibPlainDotAny
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL.Sem

namespace Val0

section Body
variable (xb : Vec Ideal S256x1024 .f32) (X : Spec.T2 8192 1024) (W : Spec.T2 1024 4224) (B : Spec.T2 1 4224)
  {n : Nat} (i : (⟨2, ![256, n]⟩ : Shape).Idx) (r : Fin 8192) (hx : ∀ h : Fin 1024, xb (ix2 (i 0) h) = X (ix2 r h))
include hx

/-- Where row `i 0` of the block is row `r` of the input, the body's activated projection there is the specification's at `r`. -/
theorem pay1_apply (f : Fin 4224) : k0_pay1 xb W B (ix2 (i 0) f) = Spec.act2 X W B r f := by
  unfold k0_pay1 Spec.act2 Spec.silu
  refine congrArg (fun z : EReal => z * Ideal.logistic z) (congrArg₂ (· + ·) ?_ ?_)
  · refine (PlainDot.matmul_zero_apply_any 256 1024 4224 none _ _ (ix2 (i 0) f)).trans (Finset.sum_congr rfl fun h _ => ?_)
    exact congrArg₂ (· * ·) ((congrFun (shapeCast_self xb _) _).trans (hx h)) (congrFun (shapeCast_self W _) _)
  · refine (broadcastTo_apply _ _ (ix2 (i 0) f) (ix2 (0 : Fin 1) f) fun a => ?_).trans (congrFun (shapeCast_self B _) _)
    match a with
    | ⟨0, _⟩ => rfl
    | ⟨1, _⟩ => rfl

/-- So a band of its columns, read at `i`, is the specification's at the band's column. -/
theorem band_apply (off : Fin 2 → Nat) (hs : S256x4224.Slices off ⟨2, ![256, n]⟩) (h0 : off 0 = 0) (f : Fin 4224)
    (hf : f.val = off 1 + (i 1).val) : extractStridedSlice ⟨2, ![256, n]⟩ off (k0_pay1 xb W B) hs i = Spec.act2 X W B r f :=
  (extractStridedSlice_apply off _ hs i (ix2 (i 0) f) fun a => match a with
    | ⟨0, _⟩ => by show (i 0).val = off 0 + (i 0).val; omega
    | ⟨1, _⟩ => hf).trans (pay1_apply xb X W B i r hx f)

end Body

/-- Row j of a [2, 128] table, repeated over the block's rows, read at `i`. -/
theorem row_apply (x : Spec.T2 2 128) (off : Fin 2 → Nat) (hs : S2x128.Slices off S1x128) (j : Fin 2) (h0 : off 0 = j.val) (h1 : off 1 = 0)
    (i : S256x128.Idx) (s : Fin 128) (h : s.val = (i 1).val) :
    broadcastTo S256x128 (extractStridedSlice S1x128 off x hs) broadcasts_S1x128_S256x128 i = x (ix2 j s) :=
  (broadcastTo_apply _ _ i (ix2 (0 : Fin 1) s) fun a => match a with | ⟨0, _⟩ => rfl | ⟨1, _⟩ => h).trans
    (extractStridedSlice_apply off x hs _ (ix2 j s) fun a => match a with
      | ⟨0, _⟩ => by show j.val = off 0 + 0; omega
      | ⟨1, _⟩ => by show s.val = off 1 + s.val; omega)

/-- Each output the body leaves is its payload of the five input blocks. -/
theorem out0_eq : ∀ {c i a1 h1 a2 h2 a3 h3 a4 h4 a5 h5 a6 h6 a7 h7 a8 h8 a9 h9 x0 x1 x2 x3 x4},
    out0_5 (F := Ideal) c i a1 h1 a2 h2 a3 h3 a4 h4 a5 h5 a6 h6 a7 h7 a8 h8 a9 h9 x0 x1 x2 x3 x4 = k0_pay3 x0 x1 x2 x3 x4
    ∧ out0_6 c i a1 h1 a2 h2 a3 h3 a4 h4 a5 h5 a6 h6 a7 h7 a8 h8 a9 h9 x0 x1 x2 x3 x4 = k0_pay4 x0 x1 x2 x3 x4
    ∧ out0_7 c i a1 h1 a2 h2 a3 h3 a4 h4 a5 h5 a6 h6 a7 h7 a8 h8 a9 h9 x0 x1 x2 x3 x4 = k0_pay5 x0 x1 x2
    ∧ out0_8 c i a1 h1 a2 h2 a3 h3 a4 h4 a5 h5 a6 h6 a7 h7 a8 h8 a9 h9 x0 x1 x2 x3 x4 = k0_pay6 x0 x1 x2 := by
  intro c i a1 h1 a2 h2 a3 h3 a4 h4 a5 h5 a6 h6 a7 h7 a8 h8 a9 h9 x0 x1 x2 x3 x4
  have hz : (![0, 0] : Fin 2 → Nat) = fun _ => 0 := funext fun a => by fin_cases a <;> rfl
  refine ⟨?q, ?k, ?v, ?u⟩
  case' q => unfold out0_5; rw [View.read_writes_eq_canon _ _ _ fun _ => cover0_5 ..]
  case' k => unfold out0_6; rw [View.read_writes_eq_canon _ _ _ fun _ => cover0_6 ..]
  case' v => unfold out0_7; rw [View.read_writes_eq_canon _ _ _ fun _ => cover0_7 ..]
  case' u => unfold out0_8; rw [View.read_writes_eq_canon _ _ _ fun _ => cover0_8 ..]
  all_goals
    unfold kernelRun0
    dsimp only
    sl_unfold_words
    rw [View.canon_unit_zero hz]
    simp only [View.readAt_eq_ld, Memref.IsWhole.read_unread, View.ld_unit_zero (S := ⟨2, _⟩) hz]

variable (V : (c : Dev nD) → (b : Ref sig .tc) → Buf (Elt Ideal) ((c : Thread nD τ).loc b)) (c : Dev nD) (t : Fin cfg0.N)

theorem idx_whole : ∀ t : Fin cfg0.N, (∀ a, win0_1.index t a = 0) ∧ (∀ a, win0_2.index t a = 0) ∧ (∀ a, win0_3.index t a = 0) ∧ ∀ a, win0_4.index t a = 0 :=
  (by decide +kernel : ∀ t : Fin grid0.N, _)

theorem idx_row : ∀ t : Fin cfg0.N, (win0_0.index t 0 = t.val ∧ win0_0.index t 1 = 0) ∧ (win0_5.index t 0 = t.val ∧ win0_5.index t 1 = 0)
    ∧ (win0_6.index t 0 = t.val ∧ win0_6.index t 1 = 0) ∧ (win0_7.index t 0 = t.val ∧ win0_7.index t 1 = 0) ∧ win0_8.index t 0 = t.val ∧ win0_8.index t 1 = 0 :=
  (by decide +kernel : ∀ t : Fin grid0.N, _)

/-- At every point, blocks 1 to 4 are the whole arrays. -/
theorem whole_eq : iblk0 V c 1 t = V c main_v1 ∧ iblk0 V c 2 t = V c main_v2 ∧ iblk0 V c 3 t = V c main_arg3 ∧ iblk0 V c 4 t = V c main_arg4 := by
  obtain ⟨e1, e2, e3, e4⟩ := idx_whole t
  exact ⟨funext fun y => congrArg (V c main_v1) (funext fun a => Fin.ext (win0_1.rect_emb_val_of_index_zero t a (e1 a) y)),
    funext fun y => congrArg (V c main_v2) (funext fun a => Fin.ext (win0_2.rect_emb_val_of_index_zero t a (e2 a) y)),
    funext fun y => congrArg (V c main_arg3) (funext fun a => Fin.ext (win0_3.rect_emb_val_of_index_zero t a (e3 a) y)),
    funext fun y => congrArg (V c main_arg4) (funext fun a => Fin.ext (win0_4.rect_emb_val_of_index_zero t a (e4 a) y))⟩

/-- The input's block at point t is rows 256 t .. 256 t + 255 of the input. -/
theorem xblk_apply (p : Fin 256) (r : Fin 8192) (hr : r.val = 256 * t.val + p.val) (h : Fin 1024) :
    iblk0 V c 0 t (ix2 p h) = V c main_v0 (ix2 r h) := by
  have I := idx_row t
  exact congrArg (V c main_v0) (Shape.idx_ext₂ (by show win0_0.index t 0 * 256 + 1 * p.val = r.val; omega)
    (by show win0_0.index t 1 * 1024 + 1 * h.val = h.val; omega))

/-- `e t` puts block t's rows at rows 256 t .. of the array and keeps the columns. -/
def RowBlock {n : Nat} (e : Fin cfg0.N → (⟨2, ![256, n]⟩ : Shape).Idx → (⟨2, ![8192, n]⟩ : Shape).Idx) : Prop :=
  ∀ t y, (e t y 0).val = 256 * t.val + (y 0).val ∧ (e t y 1).val = (y 1).val

/-- Such blocks tile the 8192 rows: row r is row r % 256 of block r / 256. -/
theorem RowBlock.tile {n : Nat} {e} (he : RowBlock (n := n) e) (i) : ∃ t y, e t y = i := by
  have hN : cfg0.N = 32 := N_0
  have h0 := idx2_lt0 i
  refine ⟨⟨(i 0).val / 256, by omega⟩, ix2 ⟨(i 0).val % 256, by omega⟩ (i 1), ?_⟩
  obtain ⟨e0, e1⟩ := he ⟨(i 0).val / 256, by omega⟩ (ix2 ⟨(i 0).val % 256, by omega⟩ (i 1))
  exact Shape.idx_ext₂ (by rw [e0]; show 256 * ((i 0).val / 256) + (i 0).val % 256 = _; omega) e1

theorem emb5 : RowBlock fun t y => ((cfg0.win 5).blk t).view.emb y := fun t y => by
  have I := idx_row t
  exact ⟨by show win0_5.index t 0 * 256 + 1 * (y 0).val = _; omega, by show win0_5.index t 1 * 128 + 1 * (y 1).val = _; omega⟩

theorem emb6 : RowBlock fun t y => ((cfg0.win 6).blk t).view.emb y := fun t y => by
  have I := idx_row t
  exact ⟨by show win0_6.index t 0 * 256 + 1 * (y 0).val = _; omega, by show win0_6.index t 1 * 128 + 1 * (y 1).val = _; omega⟩

theorem emb7 : RowBlock fun t y => ((cfg0.win 7).blk t).view.emb y := fun t y => by
  have I := idx_row t
  exact ⟨by show win0_7.index t 0 * 256 + 1 * (y 0).val = _; omega, by show win0_7.index t 1 * 2048 + 1 * (y 1).val = _; omega⟩

theorem emb8 : RowBlock fun t y => ((cfg0.win 8).blk t).view.emb y := fun t y => by
  have I := idx_row t
  exact ⟨by show win0_8.index t 0 * 256 + 1 * (y 0).val = _; omega, by show win0_8.index t 1 * 2048 + 1 * (y 1).val = _; omega⟩

end Val0

open Val0

variable (V : (c : Dev nD) → (b : Ref sig .tc) → Buf (Elt Ideal) ((c : Thread nD τ).loc b))

/-- Point t leaves block t of the specification's q, and the blocks tile the array. -/
theorem arr0_5 (c : Dev nD) :
    (dat0 V c).arrAt 5 cfg0.N = (Spec.qk2 (V c main_v0) (V c main_v1) (V c main_v2) (V c main_arg3) (V c main_arg4) 0 : Spec.T2 8192 128) :=
  (dat0 V c).arrAt_eq_of_cover 5 _ (fun t _ => funext fun y => by
      obtain ⟨h0, h1⟩ := emb5 t y
      show (dat0 V c).after 5 t y = Spec.qk2 _ _ _ _ _ 0 (((cfg0.win 5).blk t).view.emb y)
      rw [after0_5, out0_eq.1]
      simp only [whole_eq V c t]
      unfold k0_pay3 k0_pay2
      exact congrArg₂ (· + ·) (congrArg₂ (· * ·) (band_apply _ _ _ _ y _ (xblk_apply V c t _ _ h0) ![0, 4096] _ rfl (Spec.colBase _) (congrArg (4096 + ·) h1))
        (row_apply _ ![0, 0] _ 0 rfl rfl y _ h1)) (row_apply _ ![0, 0] _ 0 rfl rfl y _ h1))
    fun i => by obtain ⟨t, y, rfl⟩ := emb5.tile i; exact ⟨t, flush0_5 t, View.emb_mem_set _ y⟩

theorem arr0_6 (c : Dev nD) :
    (dat0 V c).arrAt 6 cfg0.N = (Spec.qk2 (V c main_v0) (V c main_v1) (V c main_v2) (V c main_arg3) (V c main_arg4) 1 : Spec.T2 8192 128) :=
  (dat0 V c).arrAt_eq_of_cover 6 _ (fun t _ => funext fun y => by
      obtain ⟨h0, h1⟩ := emb6 t y
      show (dat0 V c).after 6 t y = Spec.qk2 _ _ _ _ _ 1 (((cfg0.win 6).blk t).view.emb y)
      rw [after0_6, out0_eq.2.1]
      simp only [whole_eq V c t]
      unfold k0_pay4 k0_pay2
      exact congrArg₂ (· + ·) (congrArg₂ (· * ·) (band_apply _ _ _ _ y _ (xblk_apply V c t _ _ h0) ![0, 4096] _ rfl (Spec.colBase _) (congrArg (4096 + ·) h1))
        (row_apply _ ![1, 0] _ 1 rfl rfl y _ h1)) (row_apply _ ![1, 0] _ 1 rfl rfl y _ h1))
    fun i => by obtain ⟨t, y, rfl⟩ := emb6.tile i; exact ⟨t, flush0_6 t, View.emb_mem_set _ y⟩

theorem arr0_7 (c : Dev nD) :
    (dat0 V c).arrAt 7 cfg0.N = (Spec.v2 (V c main_v0) (V c main_v1) (V c main_v2) : Spec.T2 8192 2048) :=
  (dat0 V c).arrAt_eq_of_cover 7 _ (fun t _ => funext fun y => by
      obtain ⟨h0, h1⟩ := emb7 t y
      show (dat0 V c).after 7 t y = Spec.v2 _ _ _ (((cfg0.win 7).blk t).view.emb y)
      rw [after0_7, out0_eq.2.2.1]
      simp only [whole_eq V c t]
      unfold k0_pay5
      exact band_apply _ _ _ _ y _ (xblk_apply V c t _ _ h0) ![0, 2048] slices_S256x4224_o0_2048_S256x2048 rfl (Spec.colV _) (congrArg (2048 + ·) h1))
    fun i => by obtain ⟨t, y, rfl⟩ := emb7.tile i; exact ⟨t, flush0_7 t, View.emb_mem_set _ y⟩

theorem arr0_8 (c : Dev nD) :
    (dat0 V c).arrAt 8 cfg0.N = (Spec.u2 (V c main_v0) (V c main_v1) (V c main_v2) : Spec.T2 8192 2048) :=
  (dat0 V c).arrAt_eq_of_cover 8 _ (fun t _ => funext fun y => by
      obtain ⟨h0, h1⟩ := emb8 t y
      show (dat0 V c).after 8 t y = Spec.u2 _ _ _ (((cfg0.win 8).blk t).view.emb y)
      rw [after0_8, out0_eq.2.2.2]
      simp only [whole_eq V c t]
      unfold k0_pay6
      exact band_apply _ _ _ _ y _ (xblk_apply V c t _ _ h0) ![0, 0] slices_S256x4224_o0_0_S256x2048 rfl (Spec.colU _) (h1.trans (Nat.zero_add _).symm))
    fun i => by obtain ⟨t, y, rfl⟩ := emb8.tile i; exact ⟨t, flush0_8 t, View.emb_mem_set _ y⟩

end Cert.KernelIdeal.Hand

end
-- ==== Proof.KI.Val1Pieces.lean ====
import proofs.«143630_j6073083756839_1_alg».proof.Proof.KI.R1
import proofs.«143630_j6073083756839_1_alg».proof.Proof.Spec
import Idealize.ShloMosaic.Lib.Pipeline.Value
import Idealize.ShloMosaic.Lib.ValueIdx
import Idealize.ShloMosaic.Lib.ValueLayout
import Idealize.ShloMosaic.PureOps.Ideal.Laws
import proofs.«143630_j6073083756839_1_alg».proof.Proof.LibPlainDotAny

noncomputable section

namespace Cert.KernelIdeal.Hand

open Cert.KernelIdeal Cert.KernelIdeal.Gen
open Idealize.ShloMosaic Idealize.ShloMosaic.TcCoe Idealize.ShloMosaic.ValueIdx
open Idealize.ShloMosaic.Tactic

def relu2 (z : EReal) : EReal := max (Spec.scaleK z) 0 * max (Spec.scaleK z) 0

def sqBlk (x0 : Vec Ideal S1x256x128 .bf16) (x1 : Vec Ideal S1x512x128 .bf16) (p : Fin 256) (j : Fin 512) : EReal :=
  relu2 (∑ s : Fin 128, x0 (ix3 (0 : Fin 1) p s) * x1 (ix3 (0 : Fin 1) j s))

def term (x0 : Vec Ideal S1x256x128 .bf16) (x1 : Vec Ideal S1x512x128 .bf16) (x2 : Vec Ideal S1x512x2048 .bf16) (p : Fin 256) (e : Fin 2048) : EReal :=
  ∑ j : Fin 512, sqBlk x0 x1 p j * x2 (ix3 (0 : Fin 1) j e)

def outBlk (x3 : Vec Ideal S1x256x2048 .bf16) (x4 : Vec Ideal S2048x1024 .bf16) (x5 : Vec Ideal S1x1024 .f32) (acc : Vec Ideal S256x2048 .f32)
    (p : Fin 256) (h : Fin 1024) : EReal :=
  (∑ e : Fin 2048, (x3 (ix3 (0 : Fin 1) p e) * acc (ix2 p e)) * x4 (ix2 e h)) + x5 (ix2 (0 : Fin 1) h)

theorem k1_pay1_apply (p : Fin 256) (e : Fin 2048) : (k1_pay1 (F := Ideal)) (ix2 p e) = 0 := by
  unfold k1_pay1
  exact (congrFun (shapeCast_self _ _) (ix2 p e)).trans Ideal.ofBits_zero_f32

theorem sq_scalar (x : EReal) :
    max (x * Ideal.ofBits .f32 0x3A000000#32) (Ideal.ofBits .f32 0x00000000#32) * max (x * Ideal.ofBits .f32 0x3A000000#32) (Ideal.ofBits .f32 0x00000000#32)
      = relu2 x := by
  rw [Ideal.ofBits_zero_f32]; rfl

-- Both products are plain matrix products read at coordinates; the scaled score is rectified and squared entrywise.
theorem k1_pay2_apply (v3 : Vec Ideal S1x256x128 .bf16) (v5 : Vec Ideal S1x512x128 .bf16) (v14 : Vec Ideal S1x512x2048 .bf16)
    (v16 : Vec Ideal S256x2048 .f32) (p : Fin 256) (e : Fin 2048) :
    k1_pay2 (F := Ideal) v3 v5 v14 v16 (ix2 p e) = v16 (ix2 p e) + term v3 v5 v14 p e := by
  unfold k1_pay2
  refine (congrFun (shapeCast_self _ _) (ix2 p e)).trans (congrArg (v16 (ix2 p e) + ·) ?_)
  refine (PlainDot.matmul_zero_apply_any 256 512 2048 none _ _ (ix2 p e)).trans (Finset.sum_congr rfl fun j _ => ?_)
  refine congrArg₂ (· * ·) ((sq_scalar _).trans (congrArg relu2 ?_)) (shapeCast_1ab_ab_apply v14 _ j e)
  exact (PlainDot.matmul_zero_apply_any 256 128 512 none _ _ (ix2 p j)).trans (Finset.sum_congr rfl fun s _ =>
    congrArg₂ (· * ·) (shapeCast_1ab_ab_apply v3 _ p s) ((transpose_ix2_apply _ _ s j).trans (shapeCast_1ab_ab_apply v5 _ j s)))

theorem k1_pay3_apply (v26 : Vec Ideal S1x256x2048 .bf16) (v29 : Vec Ideal S256x2048 .f32) (v32 : Vec Ideal S2048x1024 .bf16)
    (v35 : Vec Ideal S1x1024 .f32) (p : Fin 256) (h : Fin 1024) :
    k1_pay3 (F := Ideal) v26 v29 v32 v35 (ix3 (0 : Fin 1) p h) = outBlk v26 v32 v35 v29 p h := by
  unfold k1_pay3
  refine (shapeCast_ab_1ab_apply _ _ (0 : Fin 1) p h).trans (congrArg₂ (· + ·) ?_
    ((broadcastTo_1b_ab_apply _ _ p h).trans (congrFun (shapeCast_self v35 _) (ix2 (0 : Fin 1) h))))
  refine (PlainDot.matmul_zero_apply_any 256 2048 1024 none _ _ (ix2 p h)).trans (Finset.sum_congr rfl fun e _ => ?_)
  exact congrArg₂ (· * ·) (congrArg (· * v29 (ix2 p e)) (shapeCast_1ab_ab_apply v26 _ p e)) (congrFun (shapeCast_self v32 _) (ix2 e h))

theorem hz2 : (![0, 0] : Fin 2 → Nat) = fun _ => 0 := funext fun a => by fin_cases a <;> rfl
theorem hz3 : (![0, 0, 0] : Fin 3 → Nat) = fun _ => 0 := funext fun a => by fin_cases a <;> rfl

-- At zero offsets and full sizes the rectangle is the whole shape.
section
variable {Val : EltTy → Type} [∀ e, Nonempty (Val e)] {e : EltTy} {a b c : Nat}

theorem ld2 (inb) (X : (⟨2, ![a, b]⟩ : Shape).Idx → Val e) : View.ld X (Rect.unit ![0, 0] ![a, b] inb) = X :=
  View.ld_unit_zero (S := ⟨2, ![a, b]⟩) hz2 inb X
theorem ld3 (inb) (X : (⟨3, ![a, b, c]⟩ : Shape).Idx → Val e) : View.ld X (Rect.unit ![0, 0, 0] ![a, b, c] inb) = X :=
  View.ld_unit_zero (S := ⟨3, ![a, b, c]⟩) hz3 inb X
theorem canon2 (inb) (w : (⟨2, ![a, b]⟩ : Shape).Idx → Val e) (L) :
    View.canon ((⟨Rect.unit ![0, 0] ![a, b] inb, w⟩ : View.Piece Val ⟨2, ![a, b]⟩ e) :: L) = w :=
  View.canon_cons_unit_zero (S := ⟨2, ![a, b]⟩) hz2 inb w L
theorem canon3 (inb) (w : (⟨3, ![a, b, c]⟩ : Shape).Idx → Val e) (L) :
    View.canon ((⟨Rect.unit ![0, 0, 0] ![a, b, c] inb, w⟩ : View.Piece Val ⟨3, ![a, b, c]⟩ e) :: L) = w :=
  View.canon_cons_unit_zero (S := ⟨3, ![a, b, c]⟩) hz3 inb w L
theorem readCov2 {sig : RefSig} {κ : Kind} {sp : Space} (v : View sig κ sp ⟨2, ![a, b]⟩ e) (inb) (w : (⟨2, ![a, b]⟩ : Shape).Idx → Val e) :
    v.readCov [(⟨Rect.unit ![0, 0] ![a, b] inb, w⟩ : View.Piece Val ⟨2, ![a, b]⟩ e)] (Rect.unit ![0, 0] ![a, b] inb).toLoadRect = w :=
  View.readCov_unit_zero (S := ⟨2, ![a, b]⟩) v hz2 inb w

end

variable {F : FTy → Type} [FloatOps F]

-- What each kind of point leaves is a function of the blocks it reads alone, in any float family.
theorem sout1_A_0_eq : @sout1_A_0 F _ = fun _ _ _ _ _ _ _ _ _ _ _ _ _ _ _ _ _ _ _ _ x0 x1 x2 _ _ _ => k1_pay2 x0 x1 x2 k1_pay1 := by
  funext _ _ _ _ _ _ _ _ _ _ _ _ _ _ _ _ _ _ _ _ _ _ _ _ _ _
  unfold sout1_A_0
  rw [View.read_writes_eq_canon _ _ _ fun y => scover1_A_0 ..]
  unfold kernelRun1_A
  dsimp only
  sl_unfold_words
  simp only [View.readAt_eq_ld, Memref.IsWhole.read_unread, ld2, ld3, canon2, canon3, readCov2]

theorem sout1_B_0_eq : @sout1_B_0 F _ = fun _ _ _ _ _ _ _ _ _ _ _ _ _ _ _ _ _ _ _ _ x0 x1 x2 _ _ _ xs0 => k1_pay2 x0 x1 x2 xs0 := by
  funext _ _ _ _ _ _ _ _ _ _ _ _ _ _ _ _ _ _ _ _ _ _ _ _ _ _ _
  unfold sout1_B_0
  rw [View.read_writes_eq_canon _ _ _ fun y => scover1_B_0 ..]
  unfold kernelRun1_B
  dsimp only
  sl_unfold_words
  simp only [View.readAt_eq_ld, Memref.IsWhole.read_unread, ld2, ld3, canon2, canon3, readCov2]

theorem sout1_C_0_eq : @sout1_C_0 F _ = fun _ _ _ _ _ _ _ _ _ _ _ _ _ _ _ _ _ _ _ _ x0 x1 x2 _ _ _ xs0 => k1_pay2 x0 x1 x2 xs0 := by
  funext _ _ _ _ _ _ _ _ _ _ _ _ _ _ _ _ _ _ _ _ _ _ _ _ _ _ _
  unfold sout1_C_0
  rw [View.read_writes_eq_canon _ _ _ fun y => scover1_C_0 ..]
  unfold kernelRun1_C
  dsimp only
  sl_unfold_words
  simp only [View.readAt_eq_ld, Memref.IsWhole.read_unread, ld2, ld3, canon2, canon3, readCov2]

theorem out1_C_6_eq : @out1_C_6 F _ = fun _ _ _ _ _ _ _ _ _ _ _ _ _ _ _ _ _ _ _ _ x0 x1 x2 x3 x4 x5 xs0 => k1_pay3 x3 (k1_pay2 x0 x1 x2 xs0) x4 x5 := by
  funext _ _ _ _ _ _ _ _ _ _ _ _ _ _ _ _ _ _ _ _ _ _ _ _ _ _ _
  unfold out1_C_6
  rw [View.read_writes_eq_canon _ _ _ fun y => cover1_C_6 ..]
  unfold kernelRun1_C
  dsimp only
  sl_unfold_words
  simp only [View.readAt_eq_ld, Memref.IsWhole.read_unread, ld2, ld3, canon2, canon3, readCov2]

end Cert.KernelIdeal.Hand

end
-- ==== Proof.LibSumSplit.lean ====
import Mathlib.Algebra.BigOperators.Fin
import Mathlib.Logic.Equiv.Fin.Basic

open scoped BigOperators

namespace Cert.SumSplit

-- Index b · t + q, the q-th of run t, lies below a · b.
theorem lt_of_run {a b N : ℕ} (h : a * b = N) (t : Fin a) (q : Fin b) : b * t.val + q.val < N := by
  have ht := t.isLt
  have hq := q.isLt
  calc b * t.val + q.val < b * t.val + b := by omega
    _ = b * (t.val + 1) := (Nat.mul_succ b t.val).symm
    _ ≤ b * a := Nat.mul_le_mul_left _ ht
    _ = N := by rw [Nat.mul_comm, h]

-- A sum over a · b indices is the sum over the a consecutive runs of b of them.
theorem sum_split {M : Type*} [AddCommMonoid M] (a b N : ℕ) (h : a * b = N) (f : Fin N → M) :
    ∑ n, f n = ∑ t : Fin a, ∑ q : Fin b, f ⟨b * t.val + q.val, lt_of_run h t q⟩ := by
  subst h
  rw [← Fintype.sum_prod_type']
  symm
  refine Fintype.sum_equiv finProdFinEquiv _ _ ?_
  rintro ⟨t, q⟩
  refine congrArg f (Fin.ext ?_)
  simp [finProdFinEquiv, Nat.add_comm]

end Cert.SumSplit
-- ==== Proof.KI.Val1.lean ====
import proofs.«143630_j6073083756839_1_alg».proof.Proof.KI.Val1Pieces
import proofs.«143630_j6073083756839_1_alg».proof.Proof.LibSumSplit

noncomputable section

namespace Cert.KernelIdeal.Hand

open Cert.KernelIdeal Cert.KernelIdeal.Gen
open Idealize.ShloMosaic Idealize.ShloMosaic.TcCoe Idealize.ShloMosaic.ValueIdx

variable (V : (c : Dev nD) → (b : Ref sig .tc) → Buf (Elt Ideal) ((c : Thread nD τ).loc b))

namespace Val1

-- Point t: batch t / 32, query tile t / 4 % 8, key tile t % 4; u and the output are indexed as q, v as k, the bias as the weight.
theorem idx1_facts : ∀ t : Fin cfg1.N,
    (win1_0.index t (0 : Fin 3) = t.val / 32 ∧ win1_0.index t (1 : Fin 3) = t.val / 4 % 8 ∧ win1_0.index t (2 : Fin 3) = 0)
    ∧ (win1_1.index t (0 : Fin 3) = t.val / 32 ∧ win1_1.index t (1 : Fin 3) = t.val % 4 ∧ win1_1.index t (2 : Fin 3) = 0)
    ∧ win1_4.index t (0 : Fin 2) = 0 ∧ win1_4.index t (1 : Fin 2) = 0 :=
  (by decide +kernel : ∀ t : Fin grid1.N, _)

variable (c : Dev nD) (t : Fin cfg1.N)

abbrev qarr : Spec.T3 4 2048 128 := V c main_v4
abbrev karr : Spec.T3 4 2048 128 := V c main_v5
abbrev varr : Spec.T3 4 2048 2048 := V c main_v6
abbrev uarr : Spec.T3 4 2048 2048 := V c main_v7
abbrev warr : Spec.T2 2048 1024 := V c main_v8
abbrev barr : Spec.T2 1 1024 := V c main_v9

abbrev bOf : Fin 4 := ⟨t.val / 32, by have := t.isLt; have hN : cfg1.N = 128 := N_1; omega⟩
abbrev qrow (p : Fin 256) : Fin 2048 := ⟨256 * (t.val / 4 % 8) + p.val, by have := p.isLt; omega⟩
abbrev krow (j : Fin 512) : Fin 2048 := ⟨512 * (t.val % 4) + j.val, by have := j.isLt; omega⟩

-- An entry of a point's block sits in its array at the block index times the block size plus its own coordinate.
theorem qblk_apply (p : Fin 256) (s : Fin 128) :
    iblk1 V c 0 t (ix3 (0 : Fin 1) p s) = qarr V c (ix3 (bOf t) (qrow t p) s) := by
  obtain ⟨⟨e0, e1, e2⟩, -⟩ := idx1_facts t
  refine congrArg (V c main_v4) (funext fun a => Fin.ext ?_)
  match a with
  | ⟨0, _⟩ => show win1_0.index t 0 * 1 + 1 * 0 = t.val / 32; omega
  | ⟨1, _⟩ => show win1_0.index t 1 * 256 + 1 * p.val = 256 * (t.val / 4 % 8) + p.val; omega
  | ⟨2, _⟩ => show win1_0.index t 2 * 128 + 1 * s.val = s.val; omega

theorem kblk_apply (j : Fin 512) (s : Fin 128) :
    iblk1 V c 1 t (ix3 (0 : Fin 1) j s) = karr V c (ix3 (bOf t) (krow t j) s) := by
  obtain ⟨-, ⟨e0, e1, e2⟩, -⟩ := idx1_facts t
  refine congrArg (V c main_v5) (funext fun a => Fin.ext ?_)
  match a with
  | ⟨0, _⟩ => show win1_1.index t 0 * 1 + 1 * 0 = t.val / 32; omega
  | ⟨1, _⟩ => show win1_1.index t 1 * 512 + 1 * j.val = 512 * (t.val % 4) + j.val; omega
  | ⟨2, _⟩ => show win1_1.index t 2 * 128 + 1 * s.val = s.val; omega

theorem vblk_apply (j : Fin 512) (e : Fin 2048) :
    iblk1 V c 2 t (ix3 (0 : Fin 1) j e) = varr V c (ix3 (bOf t) (krow t j) e) := by
  obtain ⟨-, ⟨e0, e1, e2⟩, -⟩ := idx1_facts t
  refine congrArg (V c main_v6) (funext fun a => Fin.ext ?_)
  match a with
  | ⟨0, _⟩ => show win1_1.index t 0 * 1 + 1 * 0 = t.val / 32; omega
  | ⟨1, _⟩ => show win1_1.index t 1 * 512 + 1 * j.val = 512 * (t.val % 4) + j.val; omega
  | ⟨2, _⟩ => show win1_1.index t 2 * 2048 + 1 * e.val = e.val; omega

theorem ublk_apply (p : Fin 256) (e : Fin 2048) :
    iblk1 V c 3 t (ix3 (0 : Fin 1) p e) = uarr V c (ix3 (bOf t) (qrow t p) e) := by
  obtain ⟨⟨e0, e1, e2⟩, -⟩ := idx1_facts t
  refine congrArg (V c main_v7) (funext fun a => Fin.ext ?_)
  match a with
  | ⟨0, _⟩ => show win1_0.index t 0 * 1 + 1 * 0 = t.val / 32; omega
  | ⟨1, _⟩ => show win1_0.index t 1 * 256 + 1 * p.val = 256 * (t.val / 4 % 8) + p.val; omega
  | ⟨2, _⟩ => show win1_0.index t 2 * 2048 + 1 * e.val = e.val; omega

theorem wblk_apply (e : Fin 2048) (h : Fin 1024) : iblk1 V c 4 t (ix2 e h) = warr V c (ix2 e h) := by
  obtain ⟨-, -, e0, e1⟩ := idx1_facts t
  refine congrArg (V c main_v8) (funext fun a => Fin.ext ?_)
  match a with
  | ⟨0, _⟩ => show win1_4.index t 0 * 2048 + 1 * e.val = e.val; omega
  | ⟨1, _⟩ => show win1_4.index t 1 * 1024 + 1 * h.val = h.val; omega

theorem bblk_apply (h : Fin 1024) : iblk1 V c 5 t (ix2 (0 : Fin 1) h) = barr V c (ix2 (0 : Fin 1) h) := by
  obtain ⟨-, -, e0, e1⟩ := idx1_facts t
  refine congrArg (V c main_v9) (funext fun a => Fin.ext ?_)
  match a with
  | ⟨0, _⟩ => show win1_4.index t 0 * 1 + 1 * 0 = 0; omega
  | ⟨1, _⟩ => show win1_4.index t 1 * 1024 + 1 * h.val = h.val; omega

-- Key tile 0 starts the accumulator from the zero block; every other key tile updates what the point before left.
theorem acc_A (n : Nat) (hn : n < cfg1.N) (h0 : n % 4 = 0) :
    (outsAt1 V c n hn).2 = k1_pay2 (iblk1 V c 0 ⟨n, hn⟩) (iblk1 V c 1 ⟨n, hn⟩) (iblk1 V c 2 ⟨n, hn⟩) (k1_pay1 (F := Ideal)) := by
  rw [outsAt1_A V c ⟨n, hn⟩ h0 (by show ¬n % 4 = 3; omega), sout1_A_0_eq]

theorem acc_S (n : Nat) (hn : n < cfg1.N) (h0 : ¬n % 4 = 0) :
    (outsAt1 V c n hn).2 = k1_pay2 (iblk1 V c 0 ⟨n, hn⟩) (iblk1 V c 1 ⟨n, hn⟩) (iblk1 V c 2 ⟨n, hn⟩)
      (outsAt1 V c (n - 1) (Nat.lt_of_le_of_lt (Nat.sub_le _ _) hn)).2 := by
  by_cases h1 : n % 4 = 3
  · rw [outsAt1_C V c ⟨n, hn⟩ h0 h1, sout1_C_0_eq]
  · rw [outsAt1_B V c ⟨n, hn⟩ h0 h1, sout1_B_0_eq]

theorem out_C (h1 : t.val % 4 = 3) :
    (outsAt1 V c t.val t.isLt).1 = k1_pay3 (iblk1 V c 3 t) (outsAt1 V c t.val t.isLt).2 (iblk1 V c 4 t) (iblk1 V c 5 t) := by
  rw [outsAt1_C V c t (by omega) h1, out1_C_6_eq, sout1_C_0_eq]

abbrev addend (b : Fin 4) (n e m : Fin 2048) : EReal :=
  Spec.sq Spec.scaleK (qarr V c) (karr V c) b n m * varr V c (ix3 b m e)

def tile (b : Fin 4) (n e : Fin 2048) (kt : Fin 4) : EReal :=
  ∑ j : Fin 512, addend V c b n e ⟨512 * kt.val + j.val, Cert.SumSplit.lt_of_run (rfl : 4 * 512 = 2048) kt j⟩

-- The term of a point of the same batch and query tile as t is the sum over the keys of its key tile.
theorem term_eq (n : Nat) (hn : n < cfg1.N) (hg : n / 4 = t.val / 4) (k : Nat) (hk : n % 4 = k) (p : Fin 256) (e : Fin 2048) :
    term (iblk1 V c 0 ⟨n, hn⟩) (iblk1 V c 1 ⟨n, hn⟩) (iblk1 V c 2 ⟨n, hn⟩) p e = tile V c (bOf t) (qrow t p) e ⟨k, by omega⟩ := by
  subst hk
  rw [show bOf t = bOf ⟨n, hn⟩ from Fin.ext (by show t.val / 32 = n / 32; omega),
    show qrow t p = qrow ⟨n, hn⟩ p from Fin.ext (by show 256 * (t.val / 4 % 8) + p.val = 256 * (n / 4 % 8) + p.val; omega)]
  unfold term tile sqBlk
  simp only [qblk_apply, kblk_apply, vblk_apply]
  rfl

theorem attn_eq_tiles (b : Fin 4) (n e : Fin 2048) :
    Spec.attn Spec.scaleK (qarr V c) (karr V c) (varr V c) b n e
      = tile V c b n e 0 + tile V c b n e 1 + tile V c b n e 2 + tile V c b n e 3 := by
  show ∑ m : Fin 2048, addend V c b n e m = _
  rw [Cert.SumSplit.sum_split 4 512 2048 rfl (addend V c b n e), Fin.sum_univ_four]
  rfl

-- The three points before a point of key tile 3 are the key tiles 2, 1, 0 of its batch and query tile.
theorem acc_full (h3 : t.val % 4 = 3) (p : Fin 256) (e : Fin 2048) :
    (outsAt1 V c t.val t.isLt).2 (ix2 p e)
      = Spec.attn Spec.scaleK (qarr V c) (karr V c) (varr V c) (bOf t) (qrow t p) e := by
  rw [acc_S V c _ _ (by omega : ¬t.val % 4 = 0), acc_S V c _ _ (by omega : ¬(t.val - 1) % 4 = 0),
    acc_S V c _ _ (by omega : ¬(t.val - 1 - 1) % 4 = 0), acc_A V c _ _ (by omega : (t.val - 1 - 1 - 1) % 4 = 0)]
  simp only [k1_pay2_apply, k1_pay1_apply]
  rw [term_eq V c t t.val _ rfl 3 h3, term_eq V c t (t.val - 1) _ (by omega) 2 (by omega),
    term_eq V c t (t.val - 1 - 1) _ (by omega) 1 (by omega), term_eq V c t (t.val - 1 - 1 - 1) _ (by omega) 0 (by omega),
    attn_eq_tiles, zero_add]
  rfl

theorem out_full (h3 : t.val % 4 = 3) (p : Fin 256) (h : Fin 1024) :
    (outsAt1 V c t.val t.isLt).1 (ix3 (0 : Fin 1) p h)
      = Spec.out3 Spec.scaleK (qarr V c) (karr V c) (varr V c) (uarr V c) (warr V c) (barr V c) (ix3 (bOf t) (qrow t p) h) := by
  rw [out_C V c t h3, k1_pay3_apply]
  unfold outBlk
  simp only [ublk_apply, wblk_apply, bblk_apply, acc_full V c t h3]
  rfl

theorem flushed_eq (hf : (cfg1.win 6).flush t = true) :
    (dat1 V c).flushed 6 t = ((cfg1.win 6).blk t).view.read (Elt Ideal)
      (Spec.out3 Spec.scaleK (qarr V c) (karr V c) (varr V c) (uarr V c) (warr V c) (barr V c)) := by
  obtain ⟨⟨e0, e1, e2⟩, -⟩ := idx1_facts t
  show (cfg1.win 6).cut (grid1.coords t) ((dat1 V c).after 6 t) = _
  rw [after1_6]
  funext y
  obtain ⟨z, p, h, rfl⟩ : ∃ (z : Fin 1) (p : Fin 256) (h : Fin 1024), y = ix3 z p h := ⟨y 0, y 1, y 2, eq_ix3 y⟩
  obtain rfl : z = 0 := Subsingleton.elim _ _
  refine (out_full V c t ((flush1_6 t).mp hf) p h).trans (congrArg (Spec.out3 _ _ _ _ _ _ _) (funext fun a => Fin.ext ?_))
  match a with
  | ⟨0, _⟩ => show t.val / 32 = win1_0.index t 0 * 1 + 1 * 0; omega
  | ⟨1, _⟩ => show 256 * (t.val / 4 % 8) + p.val = win1_0.index t 1 * 256 + 1 * p.val; omega
  | ⟨2, _⟩ => show h.val = win1_0.index t 2 * 1024 + 1 * h.val; omega

-- Every output row lies in the block of the key-tile-3 point of its batch and its query tile.
theorem cover1_6 (i : S4x2048x1024.Idx) :
    ∃ t : Fin cfg1.N, (cfg1.win 6).flush t = true ∧ i ∈ ((cfg1.win 6).blk t).view.set := by
  have hN : cfg1.N = 128 := N_1
  have h0 : (i 0 : Nat) < 4 := (i 0).isLt
  have h1 : (i 1 : Nat) < 2048 := (i 1).isLt
  have h2 : (i 2 : Nat) < 1024 := (i 2).isLt
  obtain ⟨t, ht⟩ : ∃ t : Fin cfg1.N, t.val = 32 * (i 0 : Nat) + 4 * ((i 1 : Nat) / 256) + 3 := ⟨⟨_, by omega⟩, rfl⟩
  obtain ⟨⟨e0, e1, e2⟩, -⟩ := idx1_facts t
  refine ⟨t, (flush1_6 t).mpr (by omega), ?_⟩
  show i ∈ ((View.whole main_v10).slice (win1_6.rect t)).set
  rw [View.set_slice_whole, Rect.mem_set_unit]
  intro a
  match a with
  | ⟨0, _⟩ => show win1_0.index t 0 * 1 ≤ (i 0 : Nat) ∧ (i 0 : Nat) < win1_0.index t 0 * 1 + 1; omega
  | ⟨1, _⟩ => show win1_0.index t 1 * 256 ≤ (i 1 : Nat) ∧ (i 1 : Nat) < win1_0.index t 1 * 256 + 256; omega
  | ⟨2, _⟩ => show win1_0.index t 2 * 1024 ≤ (i 2 : Nat) ∧ (i 2 : Nat) < win1_0.index t 2 * 1024 + 1024; omega

end Val1

theorem arr1_6 (c : Dev nD) :
    (dat1 V c).arrAt 6 cfg1.N
      = (Spec.out3 Spec.scaleK (V c main_v4) (V c main_v5) (V c main_v6) (V c main_v7) (V c main_v8) (V c main_v9) : Spec.T3 4 2048 1024) :=
  (dat1 V c).arrAt_eq_of_cover 6 _ (fun t ht => Val1.flushed_eq V c t ht) Val1.cover1_6

end Cert.KernelIdeal.Hand

end
-- ==== Proof.KI.KVal.lean ====
import proofs.«143630_j6073083756839_1_alg».proof.Proof.KI.ValHost
import proofs.«143630_j6073083756839_1_alg».proof.Proof.KI.Val0
import proofs.«143630_j6073083756839_1_alg».proof.Proof.KI.Val1
import proofs.«143630_j6073083756839_1_alg».proof.Proof.Spec

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)
open scoped BigOperators

variable (m : (ℓ : Loc nD τ sig) → Buf (Elt Ideal) ℓ)

-- The result array after the run is the specification at the kernel's scale: the attention stage over the folded outputs of the projection stage.
theorem kernel_value (c : Dev nD) :
    W4 m c (Proc.devRef .tc main_v10)
      = (Spec.G Spec.scaleK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : Spec.T3 4 2048 1024) := by
  rw [W4_main_v10 m c, arr1_6 (V3 m) c, V3_main_v4 m c, V3_main_v5 m c, V3_main_v6 m c, V3_main_v7 m c, V3_main_v8 m c, V3_main_v9 m c,
    arr0_5 (V1 m) c, arr0_6 (V1 m) c, arr0_7 (V1 m) c, arr0_8 (V1 m) c,
    V1_main_v0 m c, V1_main_v1 m c, V1_main_v2 m c, V1_main_arg3 m c, V1_main_arg4 m c]
  rfl

end Cert.KernelIdeal.Hand

end
-- ==== Proof.Consts.lean ====
import Idealize.ShloMosaic.PureOps.Ideal
import proofs.«143630_j6073083756839_1_alg».proof.Proof.Spec

noncomputable section

namespace Cert.Consts

open Idealize.ShloMosaic

theorem ofBits_one : Ideal.ofBits .f32 0x3F800000#32 = 1 := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

-- The word is the dyadic 2⁻¹¹, exactly 1 / 2048.
theorem ofBits_inv2048 : Ideal.ofBits .f32 0x3A000000#32 = ((1 / 2048 : ℝ) : EReal) := by
  simp [Ideal.ofBits, Ideal.ieee, -EReal.coe_mul]; norm_num

-- A product with 1 / 2048 is the quotient by 2048 on every extended real, infinite ones included.
theorem scaleK_eq_scaleR : Cert.Spec.scaleK = Cert.Spec.scaleR := by
  funext z
  unfold Cert.Spec.scaleK Cert.Spec.scaleR
  rw [ofBits_2048, ofBits_inv2048, Ideal.div_coe (by norm_num : (2048 : ℝ) ≠ 0)]

end Cert.Consts

end
-- ==== Proof.RefG.lean ====
import proofs.«143630_j6073083756839_1_alg».proof.Proof.Gen.ReferenceIdeal.Read
import proofs.«143630_j6073083756839_1_alg».proof.Proof.Spec
import proofs.«143630_j6073083756839_1_alg».proof.Proof.Consts
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

-- Two indices are equal when their coordinates are equal as naturals.
theorem ext1 {n : Fin 1 → ℕ} {x y : (a : Fin 1) → Fin (n a)} (h0 : (x 0 : ℕ) = y 0) : x = y :=
  funext fun a => Fin.ext <| match a with | ⟨0, _⟩ => h0
theorem ext3 {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2
theorem ext4 {n : Fin 4 → ℕ} {x y : (a : Fin 4) → Fin (n a)} (h0 : (x 0 : ℕ) = y 0) (h1 : (x 1 : ℕ) = y 1)
    (h2 : (x 2 : ℕ) = y 2) (h3 : (x 3 : ℕ) = y 3) : x = y :=
  funext fun a => Fin.ext <| match a with | ⟨0, _⟩ => h0 | ⟨1, _⟩ => h1 | ⟨2, _⟩ => h2 | ⟨3, _⟩ => h3

-- Functions of a rank-3 index agree when they agree at every triple of coordinates.
theorem funext3 {a b c : ℕ} {α : Type} {f g : (⟨3, ![a, b, c]⟩ : Shape).Idx → α} (h : ∀ p q r, f (ix3 p q r) = g (ix3 p q r)) :
    f = g :=
  funext fun i => (congrArg f (eq_ix3 i)).trans ((h _ _ _).trans (congrArg g (eq_ix3 i)).symm)

theorem lt8192 (b : Fin 4) (n : Fin 2048) : b.val * 2048 + n.val < 8192 := by
  have := b.isLt; have := n.isLt; omega

-- Position (b, n, s) of a [4, 2048, 128] array in row-major order, split back into its coordinates.
theorem split128 (b : Fin 4) (n : Fin 2048) (s : Fin 128) :
    ((b.val * 2048 + n.val) * 128 + s.val) / 262144 = b.val ∧ ((b.val * 2048 + n.val) * 128 + s.val) / 128 % 2048 = n.val
      ∧ ((b.val * 2048 + n.val) * 128 + s.val) % 128 = s.val := by
  have := b.isLt; have := n.isLt; have := s.isLt; omega

variable (x0 : (⟨S4x2048x1024, .f32⟩ : BufTy).Contents (Elt Ideal)) (x1 : (⟨S1024x4224, .f32⟩ : BufTy).Contents (Elt Ideal))
  (x2 : (⟨S4224, .f32⟩ : BufTy).Contents (Elt Ideal)) (x3 x4 : (⟨S2x128, .f32⟩ : BufTy).Contents (Elt Ideal))
  (x5 : (⟨S2048x1024, .f32⟩ : BufTy).Contents (Elt Ideal)) (x6 : (⟨S1024, .f32⟩ : BufTy).Contents (Elt Ideal))
  (b : Fin 4) (n : Fin 2048)

theorem pre_apply (f : Fin 4224) :
    val_main_v3 (F := Ideal) x0 x1 x2 (ix3 b n f) = (∑ h : Fin 1024, x0 (ix3 b n h) * x1 (ix2 h f)) + x2 (ix1 f) := by
  rw [val_main_v3_apply, val_main_v0_apply, val_main_v2_apply, val_main_v1_apply]
  simp only [show ∀ k, lidx_main_v0 (ix3 b n f) k = ix3 b n k from fun _ => ext3 rfl rfl rfl,
    show ∀ k, ridx_main_v0 (ix3 b n f) k = ix2 k f from fun _ => Shape.idx_ext₂ rfl rfl,
    show idx_main_v1 (idx_main_v2 (ix3 b n f)) = ix1 f from ext1 rfl, Ideal.addf_def]

-- z · (1 / (1 + exp(−z))) is z · logistic z.
theorem act_apply (f : Fin 4224) :
    val_main_v4 (F := Ideal) x0 x1 x2 (ix3 b n f)
      = Spec.silu ((∑ h : Fin 1024, x0 (ix3 b n h) * x1 (ix2 h f)) + x2 (ix1 f)) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, pre_apply]
  simp only [Ideal.ofBits_def, Cert.Consts.ofBits_one]
  rfl

theorem act_spec (f : Fin 4224) :
    val_main_v4 (F := Ideal) x0 x1 x2 (ix3 b n f)
      = Spec.act2 (Spec.rows x0) x1 (Spec.row x2) (⟨b.val * 2048 + n.val, lt8192 b n⟩ : Fin 8192) f := by
  have hn := n.isLt
  rw [act_apply]
  refine congrArg Spec.silu (congrArg₂ (· + ·) (Finset.sum_congr rfl fun h _ => congrArg₂ (· * ·) ?_ rfl) rfl)
  exact congrArg x0 (ext3 (by show b.val = (b.val * 2048 + n.val) / 2048; omega)
    (by show n.val = (b.val * 2048 + n.val) % 2048; omega) rfl)

theorem u_eq : val_main_v5 (F := Ideal) x0 x1 x2
    = (Spec.fold (Spec.u2 (Spec.rows x0) x1 (Spec.row x2)) : Spec.T3 4 2048 2048) := by
  refine funext3 fun b n e => ?_
  rw [val_main_v5_apply, show idx_main_v5 (ix3 b n e) = ix3 b n (Spec.colU e) from ext3 rfl rfl rfl, act_spec]
  rfl

theorem v_eq : val_main_v6 (F := Ideal) x0 x1 x2
    = (Spec.fold (Spec.v2 (Spec.rows x0) x1 (Spec.row x2)) : Spec.T3 4 2048 2048) := by
  refine funext3 fun b n e => ?_
  rw [val_main_v6_apply, show idx_main_v6 (ix3 b n e) = ix3 b n (Spec.colV e) from ext3 rfl rfl rfl, act_spec]
  rfl

-- Both affine maps at once on a [4, 2048, 2, 128] array: entry (b, n, j, s) is q (j = 0) or k (j = 1) at (b, n, s).
theorem aff_apply (j : Fin 2) (s : Fin 128) :
    val_main_v15 (F := Ideal) x0 x1 x2 x3 x4 (ix4 b n j s)
      = Spec.fold (Spec.qk2 (Spec.rows x0) x1 (Spec.row x2) x3 x4 j) (ix3 b n s) := by
  rw [val_main_v15_apply, val_main_v12_apply, val_main_v10_apply, val_main_v8_apply, val_main_v11_apply,
    val_main_v9_apply, val_main_v14_apply, val_main_v13_apply,
    show idx_main_v8 (idx_main_v10 (ix4 b n j s)) = ix3 b n s from ext3 rfl rfl rfl,
    show idx_main_v9 (idx_main_v11 (ix4 b n j s)) = ix2 j s from Shape.idx_ext₂ rfl rfl,
    show idx_main_v13 (idx_main_v14 (ix4 b n j s)) = ix2 j s from Shape.idx_ext₂ rfl rfl, val_main_v7_apply,
    show idx_main_v7 (ix3 b n s) = ix3 b n (Spec.colBase s) from ext3 rfl rfl rfl, act_spec]
  rfl

theorem q_eq : val_main_v17 (F := Ideal) x0 x1 x2 x3 x4
    = (Spec.fold (Spec.qk2 (Spec.rows x0) x1 (Spec.row x2) x3 x4 0) : Spec.T3 4 2048 128) := by
  refine funext3 fun b n s => ?_
  rw [val_main_v17_apply, val_main_v16_apply, show idx_main_v16 (idx_main_v17 (ix3 b n s)) = ix4 b n (0 : Fin 2) s from
    ext4 (split128 b n s).1 (split128 b n s).2.1 rfl (split128 b n s).2.2, aff_apply]

theorem k_eq : val_main_v19 (F := Ideal) x0 x1 x2 x3 x4
    = (Spec.fold (Spec.qk2 (Spec.rows x0) x1 (Spec.row x2) x3 x4 1) : Spec.T3 4 2048 128) := by
  refine funext3 fun b n s => ?_
  rw [val_main_v19_apply, val_main_v18_apply, show idx_main_v18 (idx_main_v19 (ix3 b n s)) = ix4 b n (1 : Fin 2) s from
    ext4 (split128 b n s).1 (split128 b n s).2.1 rfl (split128 b n s).2.2, aff_apply]

theorem sq_apply (m : Fin 2048) :
    val_main_v24 (F := Ideal) x0 x1 x2 x3 x4 (ix3 b n m)
      = Spec.sq Spec.scaleR (Spec.fold (Spec.qk2 (Spec.rows x0) x1 (Spec.row x2) x3 x4 0))
          (Spec.fold (Spec.qk2 (Spec.rows x0) x1 (Spec.row x2) x3 x4 1)) b n m := by
  rw [val_main_v24_apply, val_main_v23_apply, val_main_v22_apply, val_main_v20_apply, val_main_v21_apply,
    val_main_cst_apply, val_main_call1_v0_apply, val_main_call1_cst_apply, q_eq, k_eq]
  simp only [show ∀ k, lidx_main_v20 (ix3 b n m) k = ix3 b n k from fun _ => ext3 rfl rfl rfl,
    show ∀ k, ridx_main_v20 (ix3 b n m) k = ix3 b m k from fun _ => ext3 rfl rfl rfl,
    Ideal.ofBits_def, Ideal.ofBits_zero_f32, Ideal.maximumf_def, Ideal.mulf_def, Ideal.hostDivf_def]
  rfl

theorem attn_apply (e : Fin 2048) :
    val_main_v25 (F := Ideal) x0 x1 x2 x3 x4 (ix3 b n e)
      = Spec.attn Spec.scaleR (Spec.fold (Spec.qk2 (Spec.rows x0) x1 (Spec.row x2) x3 x4 0))
          (Spec.fold (Spec.qk2 (Spec.rows x0) x1 (Spec.row x2) x3 x4 1))
          (Spec.fold (Spec.v2 (Spec.rows x0) x1 (Spec.row x2))) b n e := by
  rw [val_main_v25_apply, v_eq]
  exact Finset.sum_congr rfl fun m _ => by
    rw [show lidx_main_v25 (ix3 b n e) m = ix3 b n m from ext3 rfl rfl rfl,
      show ridx_main_v25 (ix3 b n e) m = ix3 b m e from ext3 rfl rfl rfl, sq_apply]

theorem ref_value :
    val_main_v30 (F := Ideal) x0 x1 x2 x3 x4 x5 x6 = (Spec.G Spec.scaleR x0 x1 x2 x3 x4 x5 x6 : Spec.T3 4 2048 1024) := by
  refine funext3 fun b n h => ?_
  rw [val_main_v30_apply, val_main_v27_apply, val_main_v29_apply, val_main_v28_apply,
    show idx_main_v28 (idx_main_v29 (ix3 b n h)) = ix1 h from ext1 rfl]
  exact congrArg₂ (· + ·) (Finset.sum_congr rfl fun e _ => by
    rw [show lidx_main_v27 (ix3 b n h) e = ix3 b n e from ext3 rfl rfl rfl,
      show ridx_main_v27 (ix3 b n h) e = ix2 e h from Shape.idx_ext₂ rfl rfl, val_main_v26_apply, attn_apply, u_eq]
    rfl) rfl

end Cert.ReferenceIdeal.RefValue

end
-- ==== Proof.lean ====
import proofs.«143630_j6073083756839_1_alg».proof.Defs
import proofs.«143630_j6073083756839_1_alg».proof.Proof.Gen.Kernel
import proofs.«143630_j6073083756839_1_alg».proof.Proof.Gen.KernelIdeal
import proofs.«143630_j6073083756839_1_alg».proof.Proof.Gen.ReferenceIdeal
import proofs.«143630_j6073083756839_1_alg».proof.Proof.Gen.Pre_finite_inputs
import proofs.«143630_j6073083756839_1_alg».proof.Proof.Gen.ReferenceIdeal.Read
import proofs.«143630_j6073083756839_1_alg».proof.Proof.K.Run
import proofs.«143630_j6073083756839_1_alg».proof.Proof.KI.KVal
import proofs.«143630_j6073083756839_1_alg».proof.Proof.RefG
import proofs.«143630_j6073083756839_1_alg».proof.Proof.Consts
import Idealize.ShloMosaic.Adequacy
import Idealize.ShloMosaic.Init

noncomputable section

namespace Cert.Proof

open Idealize.ShloMosaic Idealize.SL.Sem

-- Each kernel's frame is its run with the value dropped; the reference's likewise.
theorem frame_k : Cert.frame_Kernel := fun m ρ _ =>
  (θ_run Cert.Kernel.defs _ _).mono (fun _ h c => (h c).2) (Cert.Kernel.Hand.run_main (F := Bits) m ρ)

theorem frame_ki : Cert.frame_KernelIdeal := fun m ρ _ =>
  (θ_run Cert.KernelIdeal.defs _ _).mono (fun _ h c => (h c).2) (Cert.KernelIdeal.Hand.run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- Both results are the specification's function of the arguments; the kernel scales the scores by 2⁻¹¹, the reference divides them by 2048, and the two scales agree on every extended real.
theorem algebraic : Cert.algebraic_KernelIdeal_ReferenceIdeal := by
  intro m ρ m' ρ' _ hagree
  refine ⟨fun c => Cert.KernelIdeal.Hand.W4 m c (Proc.devRef .tc Cert.KernelIdeal.main_v10),
    Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, (hagree c).1, (hagree c).2.1, (hagree c).2.2.1, (hagree c).2.2.2.1,
    (hagree c).2.2.2.2.1, (hagree c).2.2.2.2.2.1, (hagree c).2.2.2.2.2.2, Cert.ReferenceIdeal.RefValue.ref_value,
    ← Cert.Consts.scaleK_eq_scaleR]
  exact (Cert.KernelIdeal.Hand.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
